-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S4096x4096 : Shape := ⟨2, ![4096, 4096]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩
abbrev S1024x1 : Shape := ⟨2, ![1024, 1]⟩

abbrev nBuf : Space → Nat
  | .hbm => 18
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x4096, .bf16⟩
  | .hbm, ⟨16, _⟩ => ⟨S4096x1, .f32⟩
  | .hbm, ⟨17, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S512x1024, .f32⟩
  | .local _ .vmem, ⟨19, _⟩ => ⟨S512x1024, .f32⟩
  | .local _ .vmem, ⟨20, _⟩ => ⟨S1024x1024, .f32⟩
  | .local _ .vmem, ⟨21, _⟩ => ⟨S1024x1024, .f32⟩
  | .local _ .vmem, ⟨22, _⟩ => ⟨S512x1024, .bf16⟩
  | .local _ .vmem, ⟨23, _⟩ => ⟨S512x1024, .bf16⟩
  | .local _ .vmem, ⟨24, _⟩ => ⟨S512x1, .f32⟩
  | .local _ .vmem, ⟨25, _⟩ => ⟨S512x1, .f32⟩
  | .local _ .vmem, ⟨26, _⟩ => ⟨S512x1024, .bf16⟩
  | .local _ .vmem, ⟨27, _⟩ => ⟨S512x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1, .f32⟩
  | .local _ .vmem, ⟨31, _⟩ => ⟨S1024x1, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 4], ![false, false]⟩

def k4_cond2 (i : grid4.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_10 : BitVec 32 := 0#32
  let v20 : BitVec 1 := Scalar.cmpi .ne v19 c0_i32_10
  v20

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S1024x1024 : S1024x1024.ShapeCasts S1024x1024
  transposes_S1024x1024_p1_0_S1024x1024 : S1024x1024.Transposes [1, 0] S1024x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x1024_S512 : S512x1024.Reduces [1] S512
  shapeCasts_S512_S512x1 : S512.ShapeCasts S512x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x1024.size a
  hwx3_0 : ∀ i : grid3.Coords, EltTy.bits .f32 = 32 ∨ (Rect.block (s := S4096x1024) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x1024.size a
  hwx3_1 : ∀ i : grid3.Coords, EltTy.bits .f32 = 32 ∨ (Rect.block (s := S4096x1024) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S4096x4096.size a
  hwx3_2 : ∀ i : grid3.Coords, EltTy.bits .bf16 = 32 ∨ (Rect.block (s := S4096x4096) S512x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1.size a ≤ S4096x1.size a
  hwx3_3 : ∀ i : grid3.Coords, EltTy.bits .f32 = 32 ∨ (Rect.block (s := S4096x1) S512x1.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x4096.size a
  hwx4_0 : ∀ i : grid4.Coords, EltTy.bits .bf16 = 32 ∨ (Rect.block (s := S4096x4096) S512x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S4096x1024.size a
  hwx4_1 : ∀ i : grid4.Coords, EltTy.bits .f32 = 32 ∨ (Rect.block (s := S4096x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1.size a ≤ S4096x1.size a
  hwx4_2 : ∀ i : grid4.Coords, EltTy.bits .f32 = 32 ∨ (Rect.block (s := S4096x1) S1024x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6_0) S512x1024.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6_1) S512x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v6_0) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6_1) S1024x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v7) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.K.Lin0.lean ====
import proofs.«141866_j33835752358180_1_alg».proof.Proof.Gen.Kernel.Launch
import proofs.«141866_j33835752358180_1_alg».proof.Proof.Gen.Kernel.Skeleton
import proofs.«141866_j33835752358180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_m : Rect S1024x1024 := Rect.unit (s := S1024x1024) ![0, 0] S1024x1024.size inb_S1024x1024_S1024x1024_0_0

abbrev r0_b : Rect S1x1024 := Rect.unit (s := S1x1024) ![0, 0] S1x1024.size inb_S1x1024_S1x1024_0_0

def out0_3 (x0 : Vec F S1024x1024 .f32) (x1 : Vec F S1024x1024 .f32) (x2 : Vec F S1x1024 .f32) : Vec F S1024x1024 .f32 :=
  View.canon [⟨r0_m, k0_pay1 (View.ld x0 r0_m) (View.ld x1 r0_m) (View.ld x2 r0_b)⟩]

theorem cover0_3 (p0 : Vec F S1024x1024 .f32) (y : S1024x1024.Idx) :
    ∃ pc ∈ ([⟨r0_m, p0⟩] : List (View.Piece (Elt F) S1024x1024 .f32)), y ∈ pc.1.set :=
  View.cover_of_tiled [⟨r0_m, p0⟩] S1024x1024.size (by rfl) y

-- A dense layer's body reads three whole blocks and overwrites the fourth with `out0_3` of them.
def KTriple (body : (i : grid0.Coords) → (arg1 : Memref sig .tc .vmem S1024x1024 .f32) → arg1.IsWhole → (arg2 : Memref sig .tc .vmem S1024x1024 .f32) → arg2.IsWhole →
    (arg3 : Memref sig .tc .vmem S1x1024 .f32) → arg3.IsWhole → (arg4 : Memref sig .tc .vmem S1024x1024 .f32) → arg4.IsWhole → Prog (TpuEff nD τ sig (Elt F) Λ₀ .tc) PUnit) : Prop :=
  ∀ (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .f32) (x1 : Vec F S1024x1024 .f32) (x2 : Vec F S1x1024 .f32) (K : PUnit → sProp 𝕄),
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (body i arg1 harg1 arg2 harg2 arg3 harg3 arg4 harg4) K

set_option maxHeartbeats 1000000 in
theorem sound_kernel0 : KTriple (F := F) cc0__linear_kernel := by
  intro c E i arg1 harg1 arg2 harg2 arg3 harg3 arg4 harg4 x0 x1 x2 K
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  isplitl [HΦ]; · iexact HΦ
  iframe Ho H0 H1 H2 H3

theorem body_obligation0 (c : Dev nD) : BodyObligation (dat0 (F := F) V c) (defs₀ (F := F)) Variants.none () Set.univ := fun t => by
  rw [bigSep_W0, bigSep_W0]
  exact sound_body0 V c t

end Cert.Kernel.Hd

end
-- ==== Proof.K.Lin1.lean ====
import proofs.«141866_j33835752358180_1_alg».proof.Proof.K.Lin0

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem sound_kernel1 : KTriple (F := F) cc1__linear_kernel := sound_kernel0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out0_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out0_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  isplitl [HΦ]; · iexact HΦ
  iframe Ho H0 H1 H2 H3

theorem body_obligation1 (c : Dev nD) : BodyObligation (dat1 (F := F) V c) (defs₀ (F := F)) Variants.none () Set.univ := fun t => by
  rw [bigSep_W1, bigSep_W1]
  exact sound_body1 V c t

end Cert.Kernel.Hd

end
-- ==== Proof.K.Lin2.lean ====
import proofs.«141866_j33835752358180_1_alg».proof.Proof.K.Lin0

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem sound_kernel2 : KTriple (F := F) cc2__linear_kernel := sound_kernel0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out0_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out0_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe H0 H1 H2
  isplitl [H3]; · iexists _; iexact H3
  iintro ⟨H0, H1, H2, H3⟩
  isplitl [HΦ]; · iexact HΦ
  iframe Ho H0 H1 H2 H3

theorem body_obligation2 (c : Dev nD) : BodyObligation (dat2 (F := F) V c) (defs₀ (F := F)) Variants.none () Set.univ := fun t => by
  rw [bigSep_W2, bigSep_W2]
  exact sound_body2 V c t

end Cert.Kernel.Hd

end
-- ==== Proof.K.Sc.Runs.lean ====
import proofs.«141866_j33835752358180_1_alg».proof.Proof.Gen.Kernel.Launch
import proofs.«141866_j33835752358180_1_alg».proof.Proof.Gen.Kernel.Skeleton
import proofs.«141866_j33835752358180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 4 = 0 :=
  (by decide +kernel : ∀ t : Fin grid3.N, cond3_0 (grid3.coords t) ↔ t.val % 4 = 0)

abbrev VO3_2 : View sig .tc .vmem S512x1024 .bf16 := (Memref.whole cc3_stg2_0 : Memref sig .tc .vmem S512x1024 .bf16).view

abbrev VO3_3 : View sig .tc .vmem S512x1 .f32 := (Memref.whole cc3_stg3_0 : Memref sig .tc .vmem S512x1 .f32).view

abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1 .f32 := win3_3.stage (cfg3.slots t 3)
abbrev hs3_3 (t : Fin cfg3.N) : (ms3_3 t).IsWhole := hstage3_3 ((cfg3.slots t 3).cast nbuf3_3)

-- The body's arguments at one grid point: its coordinates and four whole memrefs.
structure Pt3 where
  i : grid3.Coords
  a2 : Memref sig .tc .vmem S512x1024 .f32
  h2 : a2.IsWhole
  a3 : Memref sig .tc .vmem S1024x1024 .f32
  h3 : a3.IsWhole
  a4 : Memref sig .tc .vmem S512x1024 .bf16
  h4 : a4.IsWhole
  a5 : Memref sig .tc .vmem S512x1 .f32
  h5 : a5.IsWhole

abbrev pt3 (t : Fin cfg3.N) : Pt3 := ⟨grid3.coords t, ms3_0 t, hs3_0 t, ms3_1 t, hs3_1 t, ms3_2 t, hs3_2 t, ms3_3 t, hs3_3 t⟩

end Cert.Kernel.Hd

end
-- ==== Proof.K.Sc.RunA.lean ====
import proofs.«141866_j33835752358180_1_alg».proof.Proof.K.Sc.Runs

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun3_A (c : Dev nD) (P : Pt3) (hc0 : cond3_0 P.i) (x0 : Vec F S512x1024 .f32) (x1 : Vec F S1024x1024 .f32) :
    Σ' (L2 : List (View.Piece (Elt F) S512x1024 .bf16)), { L3 : List (View.Piece (Elt F) S512x1 .f32) //
      ∀ (E : Set ℕ) (K : PUnit → sProp 𝕄),
        iprop(owns (c : Thread nD τ) P.a2 fullShare x0 ∗ owns (c : Thread nD τ) P.a3 fullShare x1
            ∗ (∃ d, owns (c : Thread nD τ) P.a4 fullShare d) ∗ (∃ d, owns (c : Thread nD τ) P.a5 fullShare d)
            ∗ (iprop(owns (c : Thread nD τ) P.a2 fullShare x0 ∗ owns (c : Thread nD τ) P.a3 fullShare x1
                ∗ (∃ f, P.a4.view.loc (c : Thread nD τ) ↦[P.a4.view.set]{fullShare} P.a4.view.writes (Elt F) f L2)
                ∗ (∃ f, P.a5.view.loc (c : Thread nD τ) ↦[P.a5.view.set]{fullShare} P.a5.view.writes (Elt F) f L3)) -∗ K ⟨⟩))
          ⊢ wp frame (wpE (defs₀ (F := F)) Variants.none c none) E (cc3_kernel P.i P.a2 P.h2 P.a3 P.h3 P.a4 P.h4 P.a5 P.h5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%d3, %f3, -, H3⟩, Hk⟩
    obtain rfl := P.h2.eq_unread hf0; obtain rfl := P.h3.eq_unread hf1
    sl_exec (disch := first | exact hc0)
    sl_step
    iapply Hk
    isplitl [H0]
    · iexists _; isplitr; · ipureintro; exact P.h2.read_unread _
      iexact H0
    isplitl [H1]
    · iexists _; isplitr; · ipureintro; exact P.h3.read_unread _
      iexact H1
    isplitl [H2]
    · iexists _; iexact H2
    iexists _; iexact H3

end Cert.Kernel.Hd

end
-- ==== Proof.K.Sc.RunB.lean ====
import proofs.«141866_j33835752358180_1_alg».proof.Proof.K.Sc.RunA

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun3_B (c : Dev nD) (P : Pt3) (hc0 : ¬cond3_0 P.i) (x0 : Vec F S512x1024 .f32) (x1 : Vec F S1024x1024 .f32) (xo3 : Vec F S512x1 .f32) :
    Σ' (L2 : List (View.Piece (Elt F) S512x1024 .bf16)), { L3 : List (View.Piece (Elt F) S512x1 .f32) //
      ∀ (E : Set ℕ) (K : PUnit → sProp 𝕄),
        iprop(owns (c : Thread nD τ) P.a2 fullShare x0 ∗ owns (c : Thread nD τ) P.a3 fullShare x1
            ∗ (∃ d, owns (c : Thread nD τ) P.a4 fullShare d) ∗ owns (c : Thread nD τ) P.a5 fullShare xo3
            ∗ (iprop(owns (c : Thread nD τ) P.a2 fullShare x0 ∗ owns (c : Thread nD τ) P.a3 fullShare x1
                ∗ (∃ f, P.a4.view.loc (c : Thread nD τ) ↦[P.a4.view.set]{fullShare} P.a4.view.writes (Elt F) f L2)
                ∗ (∃ f, P.a5.view.loc (c : Thread nD τ) ↦[P.a5.view.set]{fullShare} P.a5.view.writes (Elt F) f L3)) -∗ K ⟨⟩))
          ⊢ wp frame (wpE (defs₀ (F := F)) Variants.none c none) E (cc3_kernel P.i P.a2 P.h2 P.a3 P.h3 P.a4 P.h4 P.a5 P.h5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%f3, %hf3, H3⟩, Hk⟩
    obtain rfl := P.h2.eq_unread hf0; obtain rfl := P.h3.eq_unread hf1; obtain rfl := P.h5.eq_unread hf3
    sl_exec (disch := first | exact hc0)
    sl_step
    iapply Hk
    isplitl [H0]
    · iexists _; isplitr; · ipureintro; exact P.h2.read_unread _
      iexact H0
    isplitl [H1]
    · iexists _; isplitr; · ipureintro; exact P.h3.read_unread _
      iexact H1
    isplitl [H2]
    · iexists _; iexact H2
    iexists _; iexact H3

end Cert.Kernel.Hd

end
-- ==== Proof.K.Sc.lean ====
import proofs.«141866_j33835752358180_1_alg».proof.Proof.K.Sc.RunB

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (P : Pt3)

section
variable (hc0 : cond3_0 P.i) (x0 : Vec F S512x1024 .f32) (x1 : Vec F S1024x1024 .f32)

theorem cover3_A_2 (y : S512x1024.Idx) : ∃ pc ∈ (kernelRun3_A c P hc0 x0 x1).1, y ∈ pc.1.set :=
  View.cover_of_tiledL (kernelRun3_A c P hc0 x0 x1).1 S512x1024.size (by sl_kernel_rfl) y

theorem cover3_A_3 (y : S512x1.Idx) : ∃ pc ∈ (kernelRun3_A c P hc0 x0 x1).2.1, y ∈ pc.1.set :=
  View.cover_of_tiledL (kernelRun3_A c P hc0 x0 x1).2.1 S512x1.size (by sl_kernel_rfl) y

def out3_A_2 : Vec F S512x1024 .bf16 := VO3_2.read (Elt F) (VO3_2.writes (Elt F) VO3_2.junk (kernelRun3_A c P hc0 x0 x1).1)

def out3_A_3 : Vec F S512x1 .f32 := VO3_3.read (Elt F) (VO3_3.writes (Elt F) VO3_3.junk (kernelRun3_A c P hc0 x0 x1).2.1)

end

variable (hc0 : ¬cond3_0 P.i) (x0 : Vec F S512x1024 .f32) (x1 : Vec F S1024x1024 .f32) (xo3 : Vec F S512x1 .f32)

theorem cover3_B_2 (y : S512x1024.Idx) : ∃ pc ∈ (kernelRun3_B c P hc0 x0 x1 xo3).1, y ∈ pc.1.set :=
  View.cover_of_tiledL (kernelRun3_B c P hc0 x0 x1 xo3).1 S512x1024.size (by sl_kernel_rfl) y

theorem cover3_B_3 (y : S512x1.Idx) : ∃ pc ∈ (kernelRun3_B c P hc0 x0 x1 xo3).2.1, y ∈ pc.1.set :=
  View.cover_of_tiledL (kernelRun3_B c P hc0 x0 x1 xo3).2.1 S512x1.size (by sl_kernel_rfl) y

def out3_B_2 : Vec F S512x1024 .bf16 := VO3_2.read (Elt F) (VO3_2.writes (Elt F) VO3_2.junk (kernelRun3_B c P hc0 x0 x1 xo3).1)

def out3_B_3 : Vec F S512x1 .f32 := VO3_3.read (Elt F) (VO3_3.writes (Elt F) VO3_3.junk (kernelRun3_B c P hc0 x0 x1 xo3).2.1)

end

-- The exponentials' block and the row sums after a point: at the first point of a row, and at a later one over the sums `xo3` so far.
def ptA3 (c : Dev nD) (t : Fin cfg3.N) (h0 : t.val % 4 = 0) : Vec F S512x1024 .bf16 × Vec F S512x1 .f32 :=
  (out3_A_2 c (pt3 t) ((hcond3_0 t).mpr h0) (iblk3 V c 0 t) (iblk3 V c 1 t), out3_A_3 c (pt3 t) ((hcond3_0 t).mpr h0) (iblk3 V c 0 t) (iblk3 V c 1 t))

def ptB3 (c : Dev nD) (t : Fin cfg3.N) (h0 : ¬t.val % 4 = 0) (xo3 : Vec F S512x1 .f32) : Vec F S512x1024 .bf16 × Vec F S512x1 .f32 :=
  (out3_B_2 c (pt3 t) (fun h => h0 ((hcond3_0 t).mp h)) (iblk3 V c 0 t) (iblk3 V c 1 t) xo3, out3_B_3 c (pt3 t) (fun h => h0 ((hcond3_0 t).mp h)) (iblk3 V c 0 t) (iblk3 V c 1 t) xo3)

def outsAt3 (c : Dev nD) : (n : ℕ) → n < cfg3.N → Vec F S512x1024 .bf16 × Vec F S512x1 .f32
  | 0, hn => ptA3 V c ⟨0, hn⟩ (Nat.zero_mod _)
  | n + 1, hn =>
    if h0 : (n + 1) % 4 = 0 then ptA3 V c ⟨n + 1, hn⟩ h0
    else ptB3 V c ⟨n + 1, hn⟩ h0 (outsAt3 c n (Nat.lt_of_succ_lt hn)).2

theorem outsAt3_A (c : Dev nD) (t : Fin cfg3.N) (h0 : t.val % 4 = 0) : outsAt3 V c t.val t.isLt = ptA3 V c t h0 := by
  obtain ⟨n, hn⟩ := t
  cases n with
  | zero => exact rfl
  | succ n => exact (dif_pos h0).trans rfl

theorem outsAt3_B (c : Dev nD) (t : Fin cfg3.N) (h0 : ¬t.val % 4 = 0) :
    outsAt3 V c t.val t.isLt = ptB3 V c t h0 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d

theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem before3_3_B (c : Dev nD) (t : Fin cfg3.N) (h0 : ¬t.val % 4 = 0) (d) :
    (dat3 V c).before 3 t d = (outsAt3 V c (t.val - 1) (Nat.lt_of_le_of_lt (Nat.sub_le _ _) t.isLt)).2 := by
  have hN : t.val < 32 := lt_of_lt_of_eq t.isLt (show cfg3.N = 32 from N_3)
  rw [Dat.before_out_kept _ 3 rfl t (by omega) (Bool.eq_false_iff.mpr fun h => by have := (flush3_3 _).mp h; dsimp only at this; omega)
    (fun _ => rfl) (fun _ _ => rfl)]
  dsimp only [dat3]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  have hN : t.val < 32 := lt_of_lt_of_eq t.isLt (show cfg3.N = 32 from N_3)
  by_cases h0 : t.val % 4 = 0
  · rw [outsAt3_A V c t h0]
    unfold ptA3 out3_A_2 out3_A_3; (try dsimp only)
    iintro ⟨HΦ, Ho, ⟨%d0, H0⟩, ⟨%d1, H1⟩, ⟨%d2, H2⟩, ⟨%d3, H3⟩⟩
    iapply ((kernelRun3_A c (pt3 t) ((hcond3_0 t).mpr h0) (iblk3 V c 0 t) (iblk3 V c 1 t)).2.2 Set.univ _)
    iframe H0 H1
    isplitl [H2]; · iexists _; iexact H2
    isplitl [H3]; · iexists _; iexact H3
    iintro ⟨H0, H1, ⟨%e2, H2⟩, ⟨%e3, H3⟩⟩
    isplitl [HΦ]; · iexact HΦ
    iframe Ho H0 H1
    isplitl [H2]
    · unfold owns; iexists _; isplitr
      swap; · iexact H2
      ipureintro; exact View.read_writes_of_cover _ _ _ _ _ (cover3_A_2 c _ _ _ _)
    unfold owns; iexists _; isplitr
    swap; · iexact H3
    ipureintro; exact View.read_writes_of_cover _ _ _ _ _ (cover3_A_3 c _ _ _ _)
  · rw [outsAt3_B V c t h0]
    simp only [before3_3_B V c t h0]
    unfold ptB3 out3_B_2 out3_B_3; (try dsimp only)
    iintro ⟨HΦ, Ho, ⟨%d0, H0⟩, ⟨%d1, H1⟩, ⟨%d2, H2⟩, ⟨%d3, H3⟩⟩
    iapply ((kernelRun3_B c (pt3 t) (fun h => h0 ((hcond3_0 t).mp h)) (iblk3 V c 0 t) (iblk3 V c 1 t) _).2.2 Set.univ _)
    iframe H0 H1
    isplitl [H2]; · iexists _; iexact H2
    iframe H3
    iintro ⟨H0, H1, ⟨%e2, H2⟩, ⟨%e3, H3⟩⟩
    isplitl [HΦ]; · iexact HΦ
    iframe Ho H0 H1
    isplitl [H2]
    · unfold owns; iexists _; isplitr
      swap; · iexact H2
      ipureintro; exact View.read_writes_of_cover _ _ _ _ _ (cover3_B_2 c _ _ _ _ _)
    unfold owns; iexists _; isplitr
    swap; · iexact H3
    ipureintro; exact View.read_writes_of_cover _ _ _ _ _ (cover3_B_3 c _ _ _ _ _)

theorem body_obligation3 (c : Dev nD) : BodyObligation (dat3 (F := F) V c) (defs₀ (F := F)) Variants.none () Set.univ := fun t => by
  rw [bigSep_W3, bigSep_W3]
  exact sound_body3 V c t

end Cert.Kernel.Hd

end
-- ==== Proof.K.Out.Runs.lean ====
import proofs.«141866_j33835752358180_1_alg».proof.Proof.Gen.Kernel.Launch
import proofs.«141866_j33835752358180_1_alg».proof.Proof.Gen.Kernel.Skeleton
import proofs.«141866_j33835752358180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1

theorem hcond4_0 : ∀ t : Fin cfg4.N, cond4_0 (grid4.coords t) ↔ t.val % 4 = 0 :=
  (by decide +kernel : ∀ t : Fin grid4.N, cond4_0 (grid4.coords t) ↔ t.val % 4 = 0)

abbrev cond4_1 (i : grid4.Coords) : Prop := k4_cond2 i = 1#1

theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

theorem idleAt4_3_A : ∀ t : Fin cfg4.N, cond4_0 (grid4.coords t) → ¬cond4_1 (grid4.coords t) → cfg4.idle 3 (grid4.coords t) = true := by decide +kernel

theorem noFlush4_3_A : ∀ t : Fin cfg4.N, cond4_0 (grid4.coords t) → ¬cond4_1 (grid4.coords t) → (cfg4.win 3).flush t = false := by decide +kernel

theorem idleAt4_3_B : ∀ t : Fin cfg4.N, ¬cond4_0 (grid4.coords t) → ¬cond4_1 (grid4.coords t) → cfg4.idle 3 (grid4.coords t) = true := by decide +kernel

theorem noFlush4_3_B : ∀ t : Fin cfg4.N, ¬cond4_0 (grid4.coords t) → ¬cond4_1 (grid4.coords t) → (cfg4.win 3).flush t = false := by decide +kernel

theorem liveAt4_3_C : ∀ t : Fin cfg4.N, ¬cond4_0 (grid4.coords t) → cond4_1 (grid4.coords t) → cfg4.idle 3 (grid4.coords t) = false := by decide +kernel

abbrev VO4_3 : View sig .tc .vmem S512x1024 .f32 := (Memref.whole cc4_stg3_0 : Memref sig .tc .vmem S512x1024 .f32).view

abbrev ms4_0 (t : Fin cfg4.N) : Memref sig .tc .vmem S512x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x1024 .f32 := win4_3.stage (cfg4.slots t 3)
abbrev hs4_3 (t : Fin cfg4.N) : (ms4_3 t).IsWhole := hstage4_3 ((cfg4.slots t 3).cast nbuf4_3)

abbrev scM4_0 : Memref sig .tc .vmem S512x1024 .f32 := Memref.whole cc4_scratch0

abbrev VS4_0 : View sig .tc .vmem S512x1024 .f32 := scM4_0.view

-- The body's arguments at one grid point: its coordinates and five whole memrefs, the last one the accumulator.
structure Pt4 where
  i : grid4.Coords
  a2 : Memref sig .tc .vmem S512x1024 .bf16
  h2 : a2.IsWhole
  a3 : Memref sig .tc .vmem S1024x1024 .f32
  h3 : a3.IsWhole
  a4 : Memref sig .tc .vmem S1024x1 .f32
  h4 : a4.IsWhole
  a5 : Memref sig .tc .vmem S512x1024 .f32
  h5 : a5.IsWhole
  a6 : Memref sig .tc .vmem S512x1024 .f32
  h6 : a6.IsWhole

abbrev pt4 (t : Fin cfg4.N) : Pt4 :=
  ⟨grid4.coords t, ms4_0 t, hs4_0 t, ms4_1 t, hs4_1 t, ms4_2 t, hs4_2 t, ms4_3 t, hs4_3 t, scM4_0, Memref.isWhole_whole _⟩

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4_0, owns_whole]; try rfl

end Cert.Kernel.Hd

end
-- ==== Proof.K.Out.RunA.lean ====
import proofs.«141866_j33835752358180_1_alg».proof.Proof.K.Out.Runs

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_A (c : Dev nD) (P : Pt4) (hc0 : cond4_0 P.i) (hc1 : ¬cond4_1 P.i)
    (x0 : Vec F S512x1024 .bf16) (x1 : Vec F S1024x1024 .f32) (x2 : Vec F S1024x1 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) P.a2 fullShare x0 ∗ owns (c : Thread nD τ) P.a3 fullShare x1 ∗ owns (c : Thread nD τ) P.a4 fullShare x2 ∗ owns (c : Thread nD τ) P.a5 fullShare xi3 ∗ (∃ d, owns (c : Thread nD τ) P.a6 fullShare d)
            ∗ (iprop(owns (c : Thread nD τ) P.a2 fullShare x0 ∗ owns (c : Thread nD τ) P.a3 fullShare x1 ∗ owns (c : Thread nD τ) P.a4 fullShare x2 ∗ owns (c : Thread nD τ) P.a5 fullShare xi3 ∗ (∃ f, P.a6.view.loc (c : Thread nD τ) ↦[P.a6.view.set]{fullShare} P.a6.view.writes (Elt F) f LS0)) -∗ K ⟨⟩))
          ⊢ wp frame (wpE (defs₀ (F := F)) Variants.none c none) E (cc4__output_kernel P.i P.a2 P.h2 P.a3 P.h3 P.a4 P.h4 P.a5 P.h5 P.a6 P.h6) K } := by
  refine ⟨[], ?_, fun xi3 E K => ?run⟩
  case run =>
    simp only [cc4__output_kernel_eq_skeleton]; unfold cc4__output_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := P.h2.eq_unread hf0; obtain rfl := P.h3.eq_unread hf1; obtain rfl := P.h4.eq_unread hf2; obtain rfl := P.h5.eq_unread hf3
    sl_exec (disch := first | exact hc0 | exact hc1)
    sl_step
    iapply Hk
    isplitl [H0]
    · iexists _; isplitr; · ipureintro; exact P.h2.read_unread _
      iexact H0
    isplitl [H1]
    · iexists _; isplitr; · ipureintro; exact P.h3.read_unread _
      iexact H1
    isplitl [H2]
    · iexists _; isplitr; · ipureintro; exact P.h4.read_unread _
      iexact H2
    isplitl [H3]
    · iexists _; isplitr; · ipureintro; exact P.h5.read_unread _
      iexact H3
    iexists _; iexact HS0

end Cert.Kernel.Hd

end
-- ==== Proof.K.Out.RunB.lean ====
import proofs.«141866_j33835752358180_1_alg».proof.Proof.K.Out.RunA

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_B (c : Dev nD) (P : Pt4) (hc0 : ¬cond4_0 P.i) (hc1 : ¬cond4_1 P.i)
    (x0 : Vec F S512x1024 .bf16) (x1 : Vec F S1024x1024 .f32) (x2 : Vec F S1024x1 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) P.a2 fullShare x0 ∗ owns (c : Thread nD τ) P.a3 fullShare x1 ∗ owns (c : Thread nD τ) P.a4 fullShare x2 ∗ owns (c : Thread nD τ) P.a5 fullShare xi3 ∗ owns (c : Thread nD τ) P.a6 fullShare xs0
            ∗ (iprop(owns (c : Thread nD τ) P.a2 fullShare x0 ∗ owns (c : Thread nD τ) P.a3 fullShare x1 ∗ owns (c : Thread nD τ) P.a4 fullShare x2 ∗ owns (c : Thread nD τ) P.a5 fullShare xi3 ∗ (∃ f, P.a6.view.loc (c : Thread nD τ) ↦[P.a6.view.set]{fullShare} P.a6.view.writes (Elt F) f LS0)) -∗ K ⟨⟩))
          ⊢ wp frame (wpE (defs₀ (F := F)) Variants.none c none) E (cc4__output_kernel P.i P.a2 P.h2 P.a3 P.h3 P.a4 P.h4 P.a5 P.h5 P.a6 P.h6) K } := by
  refine ⟨[], ?_, fun xi3 E K => ?run⟩
  case run =>
    simp only [cc4__output_kernel_eq_skeleton]; unfold cc4__output_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := P.h2.eq_unread hf0; obtain rfl := P.h3.eq_unread hf1; obtain rfl := P.h4.eq_unread hf2; obtain rfl := P.h5.eq_unread hf3; obtain rfl := P.h6.eq_unread hfs0
    sl_exec (disch := first | exact hc0 | exact hc1)
    sl_step
    iapply Hk
    isplitl [H0]
    · iexists _; isplitr; · ipureintro; exact P.h2.read_unread _
      iexact H0
    isplitl [H1]
    · iexists _; isplitr; · ipureintro; exact P.h3.read_unread _
      iexact H1
    isplitl [H2]
    · iexists _; isplitr; · ipureintro; exact P.h4.read_unread _
      iexact H2
    isplitl [H3]
    · iexists _; isplitr; · ipureintro; exact P.h5.read_unread _
      iexact H3
    iexists _; iexact HS0

end Cert.Kernel.Hd

end
-- ==== Proof.K.Out.RunC.lean ====
import proofs.«141866_j33835752358180_1_alg».proof.Proof.K.Out.RunB

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_C (c : Dev nD) (P : Pt4) (hc0 : ¬cond4_0 P.i) (hc1 : cond4_1 P.i)
    (x0 : Vec F S512x1024 .bf16) (x1 : Vec F S1024x1024 .f32) (x2 : Vec F S1024x1 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) P.a2 fullShare x0 ∗ owns (c : Thread nD τ) P.a3 fullShare x1 ∗ owns (c : Thread nD τ) P.a4 fullShare x2 ∗ (∃ d, owns (c : Thread nD τ) P.a5 fullShare d) ∗ owns (c : Thread nD τ) P.a6 fullShare xs0
            ∗ (iprop(owns (c : Thread nD τ) P.a2 fullShare x0 ∗ owns (c : Thread nD τ) P.a3 fullShare x1 ∗ owns (c : Thread nD τ) P.a4 fullShare x2 ∗ (∃ f, P.a5.view.loc (c : Thread nD τ) ↦[P.a5.view.set]{fullShare} P.a5.view.writes (Elt F) f L3) ∗ (∃ f, P.a6.view.loc (c : Thread nD τ) ↦[P.a6.view.set]{fullShare} P.a6.view.writes (Elt F) f LS0)) -∗ K ⟨⟩))
          ⊢ wp frame (wpE (defs₀ (F := F)) Variants.none c none) E (cc4__output_kernel P.i P.a2 P.h2 P.a3 P.h3 P.a4 P.h4 P.a5 P.h5 P.a6 P.h6) K } := by
  refine ⟨?_, ?_, fun E K => ?run⟩
  case run =>
    simp only [cc4__output_kernel_eq_skeleton]; unfold cc4__output_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := P.h2.eq_unread hf0; obtain rfl := P.h3.eq_unread hf1; obtain rfl := P.h4.eq_unread hf2; obtain rfl := P.h6.eq_unread hfs0
    sl_exec (disch := first | exact hc0 | exact hc1)
    sl_step
    iapply Hk
    isplitl [H0]
    · iexists _; isplitr; · ipureintro; exact P.h2.read_unread _
      iexact H0
    isplitl [H1]
    · iexists _; isplitr; · ipureintro; exact P.h3.read_unread _
      iexact H1
    isplitl [H2]
    · iexists _; isplitr; · ipureintro; exact P.h4.read_unread _
      iexact H2
    isplitl [H3]; · iexists _; iexact H3
    iexists _; iexact HS0

end Cert.Kernel.Hd

end
-- ==== Proof.K.Out.lean ====
import proofs.«141866_j33835752358180_1_alg».proof.Proof.K.Out.RunC

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (P : Pt4)

section
variable (hc0 : cond4_0 P.i) (hc1 : ¬cond4_1 P.i) (x0 : Vec F S512x1024 .bf16) (x1 : Vec F S1024x1024 .f32) (x2 : Vec F S1024x1 .f32)

def out4_A_3 : Vec F S512x1024 .f32 := VO4_3.read (Elt F) (VO4_3.writes (Elt F) VO4_3.junk (kernelRun4_A c P hc0 hc1 x0 x1 x2).1)

theorem scover4_A_0 (y : S512x1024.Idx) : ∃ pc ∈ (kernelRun4_A c P hc0 hc1 x0 x1 x2).2.1, y ∈ pc.1.set :=
  View.cover_of_tiledL (kernelRun4_A c P hc0 hc1 x0 x1 x2).2.1 S512x1024.size (by sl_kernel_rfl) y

def sout4_A_0 : Vec F S512x1024 .f32 := VS4_0.read (Elt F) (VS4_0.writes (Elt F) VS4_0.junk (kernelRun4_A c P hc0 hc1 x0 x1 x2).2.1)

end

section
variable (hc0 : ¬cond4_0 P.i) (hc1 : ¬cond4_1 P.i) (x0 : Vec F S512x1024 .bf16) (x1 : Vec F S1024x1024 .f32) (x2 : Vec F S1024x1 .f32) (xs0 : Vec F S512x1024 .f32)

def out4_B_3 : Vec F S512x1024 .f32 := VO4_3.read (Elt F) (VO4_3.writes (Elt F) VO4_3.junk (kernelRun4_B c P hc0 hc1 x0 x1 x2 xs0).1)

theorem scover4_B_0 (y : S512x1024.Idx) : ∃ pc ∈ (kernelRun4_B c P hc0 hc1 x0 x1 x2 xs0).2.1, y ∈ pc.1.set :=
  View.cover_of_tiledL (kernelRun4_B c P hc0 hc1 x0 x1 x2 xs0).2.1 S512x1024.size (by sl_kernel_rfl) y

def sout4_B_0 : Vec F S512x1024 .f32 := VS4_0.read (Elt F) (VS4_0.writes (Elt F) VS4_0.junk (kernelRun4_B c P hc0 hc1 x0 x1 x2 xs0).2.1)

end

section
variable (hc0 : ¬cond4_0 P.i) (hc1 : cond4_1 P.i) (x0 : Vec F S512x1024 .bf16) (x1 : Vec F S1024x1024 .f32) (x2 : Vec F S1024x1 .f32) (xs0 : Vec F S512x1024 .f32)

theorem cover4_C_3 (y : S512x1024.Idx) : ∃ pc ∈ (kernelRun4_C c P hc0 hc1 x0 x1 x2 xs0).1, y ∈ pc.1.set :=
  View.cover_of_tiledL (kernelRun4_C c P hc0 hc1 x0 x1 x2 xs0).1 S512x1024.size (by sl_kernel_rfl) y

def out4_C_3 : Vec F S512x1024 .f32 := VO4_3.read (Elt F) (VO4_3.writes (Elt F) VO4_3.junk (kernelRun4_C c P hc0 hc1 x0 x1 x2 xs0).1)

theorem scover4_C_0 (y : S512x1024.Idx) : ∃ pc ∈ (kernelRun4_C c P hc0 hc1 x0 x1 x2 xs0).2.1, y ∈ pc.1.set :=
  View.cover_of_tiledL (kernelRun4_C c P hc0 hc1 x0 x1 x2 xs0).2.1 S512x1024.size (by sl_kernel_rfl) y

def sout4_C_0 : Vec F S512x1024 .f32 := VS4_0.read (Elt F) (VS4_0.writes (Elt F) VS4_0.junk (kernelRun4_C c P hc0 hc1 x0 x1 x2 xs0).2.1)

end

end

-- The result block and the accumulator after a point: at the first point of a row, at a middle one, at the last.
def ptA4 (c : Dev nD) (t : Fin cfg4.N) (h0 : t.val % 4 = 0) : Vec F S512x1024 .f32 × Vec F S512x1024 .f32 :=
  (out4_A_3 c (pt4 t) ((hcond4_0 t).mpr h0) (fun h => by have := (hcond4_1 t).mp h; omega) (iblk4 V c 0 t) (iblk4 V c 1 t) (iblk4 V c 2 t),
   sout4_A_0 c (pt4 t) ((hcond4_0 t).mpr h0) (fun h => by have := (hcond4_1 t).mp h; omega) (iblk4 V c 0 t) (iblk4 V c 1 t) (iblk4 V c 2 t))

def ptB4 (c : Dev nD) (t : Fin cfg4.N) (h0 : ¬t.val % 4 = 0) (h1 : ¬t.val % 4 = 3) (xs0 : Vec F S512x1024 .f32) : Vec F S512x1024 .f32 × Vec F S512x1024 .f32 :=
  (out4_B_3 c (pt4 t) (fun h => h0 ((hcond4_0 t).mp h)) (fun h => h1 ((hcond4_1 t).mp h)) (iblk4 V c 0 t) (iblk4 V c 1 t) (iblk4 V c 2 t) xs0,
   sout4_B_0 c (pt4 t) (fun h => h0 ((hcond4_0 t).mp h)) (fun h => h1 ((hcond4_1 t).mp h)) (iblk4 V c 0 t) (iblk4 V c 1 t) (iblk4 V c 2 t) xs0)

def ptC4 (c : Dev nD) (t : Fin cfg4.N) (h1 : t.val % 4 = 3) (xs0 : Vec F S512x1024 .f32) : Vec F S512x1024 .f32 × Vec F S512x1024 .f32 :=
  (out4_C_3 c (pt4 t) (fun h => by have := (hcond4_0 t).mp h; omega) ((hcond4_1 t).mpr h1) (iblk4 V c 0 t) (iblk4 V c 1 t) (iblk4 V c 2 t) xs0,
   sout4_C_0 c (pt4 t) (fun h => by have := (hcond4_0 t).mp h; omega) ((hcond4_1 t).mpr h1) (iblk4 V c 0 t) (iblk4 V c 1 t) (iblk4 V c 2 t) xs0)

def outsAt4 (c : Dev nD) : (n : ℕ) → n < cfg4.N → Vec F S512x1024 .f32 × Vec F S512x1024 .f32
  | 0, hn => ptA4 V c ⟨0, hn⟩ (Nat.zero_mod _)
  | n + 1, hn =>
    if h0 : (n + 1) % 4 = 0 then ptA4 V c ⟨n + 1, hn⟩ h0
    else if h1 : (n + 1) % 4 = 3 then ptC4 V c ⟨n + 1, hn⟩ h1 (outsAt4 c n (Nat.lt_of_succ_lt hn)).2
    else ptB4 V c ⟨n + 1, hn⟩ h0 h1 (outsAt4 c n (Nat.lt_of_succ_lt hn)).2

theorem outsAt4_A (c : Dev nD) (t : Fin cfg4.N) (h0 : t.val % 4 = 0) : outsAt4 V c t.val t.isLt = ptA4 V c t h0 := by
  obtain ⟨n, hn⟩ := t
  cases n with
  | zero => exact rfl
  | succ n => exact (dif_pos h0).trans rfl

theorem outsAt4_B (c : Dev nD) (t : Fin cfg4.N) (h0 : ¬t.val % 4 = 0) (h1 : ¬t.val % 4 = 3) :
    outsAt4 V c t.val t.isLt = ptB4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt4_C (c : Dev nD) (t : Fin cfg4.N) (h1 : t.val % 4 = 3) :
    outsAt4 V c t.val t.isLt = ptC4 V c t h1 (outsAt4 V c (t.val - 1) (Nat.lt_of_le_of_lt (Nat.sub_le _ _) t.isLt)).2 := by
  obtain ⟨n, hn⟩ := t
  cases n with
  | zero => exact absurd ((Nat.zero_mod 4).symm.trans h1) (by decide)
  | succ n =>
    have h1' : (n + 1) % 4 = 3 := h1
    exact (dif_neg (by omega)).trans ((dif_pos h1).trans rfl)

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

theorem PhiS4_some (c : Dev nD) (n : ℕ) (h : n ≤ cfg4.N) : PhiS4 V c n h ⊢ Pipeline.ΦA spec4 c := by
  cases n with
  | zero => exact .rfl
  | succ n =>
    rw [PhiS4_succ, PhiA4_eq]
    iintro ⟨⟨HS0, HR⟩, Hg⟩
    isplitl [HS0 HR]
    · isplitl [HS0]
      · iexists _; iexact HS0
      iexact HR
    iexact Hg

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 4 = 0
  · have hcA : cond4_0 (pt4 t).i := (hcond4_0 t).mpr h0
    have hcA1 : ¬cond4_1 (pt4 t).i := fun h => by have := (hcond4_1 t).mp h; omega
    rw [Dat.leavesExact_idle (dat4 V c) 3 t (idleAt4_3_A t hcA hcA1) (noFlush4_3_A t hcA hcA1)]
    rw [outsAt4_A V c t h0]
    unfold ptA4 sout4_A_0; (try dsimp only)
    rw [PhiS4_castSucc V c t]
    refine (sep_mono (PhiS4_some V c _ _) .rfl).trans ?_
    rw [PhiA4_eq]
    iintro ⟨⟨⟨HS0, HR⟩, Hg⟩, Ho, ⟨%d0, H0⟩, ⟨%d1, H1⟩, ⟨%d2, H2⟩, ⟨%d3, H3⟩⟩
    iapply ((kernelRun4_A c (pt4 t) hcA hcA1 (iblk4 V c 0 t) (iblk4 V c 1 t) (iblk4 V c 2 t)).2.2 _ Set.univ _)
    iframe H0 H1 H2 H3 HS0
    iintro ⟨H0, H1, H2, H3, ⟨%es0, HS0⟩⟩
    iframe HR Hg
    isplitl [HS0]
    · unfold owns; iexists _; isplitr
      swap; · iexact HS0
      ipureintro; exact View.read_writes_of_cover _ _ _ _ _ (scover4_A_0 c _ _ _ _ _ _)
    iframe Ho H0 H1 H2
    iexists _; iexact H3
  · have hcB : ¬cond4_0 (pt4 t).i := fun h => h0 ((hcond4_0 t).mp h)
    by_cases h1 : t.val % 4 = 3
    · rw [show (dat4 V c).leavesExact 3 t = owns (c : Thread nD τ) (ms4_3 t) fullShare ((dat4 V c).after 3 t) from by
        unfold Dat.leavesExact; rw [liveAt4_3_C t hcB ((hcond4_1 t).mpr h1)], after4_3]
      rw [outsAt4_C V c t h1]
      unfold ptC4 out4_C_3 sout4_C_0; (try dsimp only)
      rw [PhiS4_castSucc V c t, PhiS4_pos V c _ _ (by omega)]
      iintro ⟨⟨⟨HS0, HR⟩, Hg⟩, Ho, ⟨%d0, H0⟩, ⟨%d1, H1⟩, ⟨%d2, H2⟩, ⟨%d3, H3⟩⟩
      iapply ((kernelRun4_C c (pt4 t) hcB ((hcond4_1 t).mpr h1) (iblk4 V c 0 t) (iblk4 V c 1 t) (iblk4 V c 2 t) _).2.2 Set.univ _)
      iframe H0 H1 H2
      isplitl [H3]; · iexists _; iexact H3
      iframe HS0
      iintro ⟨H0, H1, H2, ⟨%e3, H3⟩, ⟨%es0, HS0⟩⟩
      iframe HR Hg
      isplitl [HS0]
      · unfold owns; iexists _; isplitr
        swap; · iexact HS0
        ipureintro; exact View.read_writes_of_cover _ _ _ _ _ (scover4_C_0 c _ _ _ _ _ _ _)
      iframe Ho H0 H1 H2
      unfold owns; iexists _; isplitr
      swap; · iexact H3
      ipureintro; exact View.read_writes_of_cover _ _ _ _ _ (cover4_C_3 c _ _ _ _ _ _ _)
    · rw [Dat.leavesExact_idle (dat4 V c) 3 t (idleAt4_3_B t hcB (fun h => h1 ((hcond4_1 t).mp h))) (noFlush4_3_B t hcB (fun h => h1 ((hcond4_1 t).mp h)))]
      rw [outsAt4_B V c t h0 h1]
      unfold ptB4 sout4_B_0; (try dsimp only)
      rw [PhiS4_castSucc V c t, PhiS4_pos V c _ _ (by omega)]
      iintro ⟨⟨⟨HS0, HR⟩, Hg⟩, Ho, ⟨%d0, H0⟩, ⟨%d1, H1⟩, ⟨%d2, H2⟩, ⟨%d3, H3⟩⟩
      iapply ((kernelRun4_B c (pt4 t) hcB (fun h => h1 ((hcond4_1 t).mp h)) (iblk4 V c 0 t) (iblk4 V c 1 t) (iblk4 V c 2 t) _).2.2 _ Set.univ _)
      iframe H0 H1 H2 H3 HS0
      iintro ⟨H0, H1, H2, H3, ⟨%es0, HS0⟩⟩
      iframe HR Hg
      isplitl [HS0]
      · unfold owns; iexists _; isplitr
        swap; · iexact HS0
        ipureintro; exact View.read_writes_of_cover _ _ _ _ _ (scover4_B_0 c _ _ _ _ _ _ _)
      iframe Ho H0 H1 H2
      iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c :=
  PhiS4_some V c (Fin.last cfg4.N).val (Nat.le_of_lt_succ (Fin.last cfg4.N).isLt)

end Cert.Kernel.Hd

end
-- ==== Proof.K.Run.lean ====
import proofs.«141866_j33835752358180_1_alg».proof.Proof.K.Lin0
import proofs.«141866_j33835752358180_1_alg».proof.Proof.K.Lin1
import proofs.«141866_j33835752358180_1_alg».proof.Proof.K.Lin2
import proofs.«141866_j33835752358180_1_alg».proof.Proof.K.Sc
import proofs.«141866_j33835752358180_1_alg».proof.Proof.K.Out

set_option maxRecDepth 16384

noncomputable section

namespace Cert.Kernel.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
abbrev V7 : (c : Dev nD) → (b : Ref sig .tc) → Buf (Elt F) ((c : Thread nD τ).loc b) := fun c b => W7 m ρ c b

def W8 (c : Dev nD) : Valuation τ sig (Elt F) :=
  Pipeline.withArrays spec4 c (W7 m ρ c) fun w => (dat4 (V7 m ρ) c).arrAt w cfg4.N
abbrev V8 : (c : Dev nD) → (b : Ref sig .tc) → Buf (Elt F) ((c : Thread nD τ).loc b) := fun c b => W8 m ρ c b

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

theorem W7_arr (c : Dev nD) (w : Fin cfg3.W) :
    W7 m ρ c (Proc.devRef .tc (Pipeline.arrRef spec3 w)) = (dat3 (V6 m ρ) c).arrAt w cfg3.N :=
  Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) :=
  Pipeline.withArrays_of_ne spec3 c _ _ b hb

theorem W8_arr (c : Dev nD) (w : Fin cfg4.W) :
    W8 m ρ c (Proc.devRef .tc (Pipeline.arrRef spec4 w)) = (dat4 (V7 m ρ) c).arrAt w cfg4.N :=
  Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) :=
  Pipeline.withArrays_of_ne spec4 c _ _ b hb

theorem hostOps0_fresh : (hostOps0 : List (HloOp τ sig (Elt F))).Forall fun op => op.fresh = ∅ := by
  simp only [List.Forall]; repeat' constructor
theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.reshape_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
theorem hostOps2_writes : (hostOps2 : List (HloOp τ sig (Elt F))).Forall fun op => op.writes ⊆ (([main_v4] : List (Ref sig .tc)).map (Proc.devRef (τ := τ) .tc)).toFinset := by
  simp only [List.Forall]; exact (by simp only [StableHlo.reshape_writes, Finset.singleton_subset_iff, List.mem_toFinset]; exact List.mem_map_of_mem (by decide))

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

abbrev Wout (p : Fin 5) (Win : Dev nD → Valuation τ sig (Elt F)) (c : Dev nD) : Valuation τ sig (Elt F) :=
  Pipeline.withArrays (Pipeline.pin (pcfgs (F := F)) adm p).spec c (Win c) fun w => (pdats m ρ p c).arrAt w (Pipeline.pin (pcfgs (F := F)) adm p).N

set_option backward.isDefEq.respectTransparency.types false in
-- The segment record of region `p`, proved once for all five: entered with every unscoped buffer at `Win`, left with them at `Wout`.
def regA (p : Fin 5) (la : Pipeline.LaunchFacts (nD := nD) (τ := τ) cfgs p) (Win : Dev nD → Valuation τ sig (Elt F))
    (hbody : ∀ c, Pipeline.BodyObligationLoose (pdats m ρ p c) defs₀ 𝒱₀ () Set.univ)
    (howed : ∀ c t, (pdats m ρ p c).owed t = 0) (hq : ∀ c w, (pdats m ρ p c).q w = fullShare)
    (hrec : ∀ c, (pdats m ρ p c).recorded 0 = Set.univ)
    (hA : ∀ c w, (pdats m ρ p c).A w = Win c (Proc.devRef .tc (Pipeline.arrRef (Pipeline.pin (pcfgs (F := F)) adm p).spec w)))
    (hΦ0 : ∀ c, (Pipeline.ΦA (Pipeline.pin (pcfgs (F := F)) adm p).spec c : sProp 𝕄) ⊢ (pdats m ρ p c).Φ 0)
    (hΦN : ∀ c, (pdats m ρ p c).Φ (Fin.last _) ⊢ (Pipeline.ΦA (Pipeline.pin (pcfgs (F := F)) adm p).spec c : sProp 𝕄)) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout m ρ p Win c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    rw [Pipeline.ownSems0_none]
    have hsplit := Pipeline.arrays_of_unscopedBufs (p := p) (pcfgs (F := F)) adm (pdats m ρ) la.win la.arr_whole c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl ((hrec c).symm ▸ Set.mem_univ x)
      iexact HO
    isplitl [Hp]; · iexact Hp
    iexact Hrest
  hin c := by
    refine .trans ?_ (hΦ0 c); unfold Pipeline.ΦA
    iintro ⟨Hp, -, Hr⟩
    isplitl [Hr]; · iexact Hr
    iexact Hp
  hout c := by
    refine (hΦN c).trans ?_; rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (hq c))
      (fun b => Win c b) (fun b => Wout m ρ p Win c b) ((pdats m ρ p c).arrAt · (Pipeline.pin (pcfgs (F := F)) adm p).N)
      (fun w => (Pipeline.withArrays_arr (Pipeline.pin (pcfgs (F := F)) adm p).spec la.win.arr_inj c (Win c) (fun w => (pdats m ρ p c).arrAt w (Pipeline.pin (pcfgs (F := F)) adm p).N) w).symm)
      (fun b hb => Pipeline.withArrays_of_ne (Pipeline.pin (pcfgs (F := F)) adm p).spec c (Win c) _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

abbrev reg0 := regA m ρ 0 launch0 (W1 m ρ) (fun c => (body_obligation0 (V1 m ρ) c).loose) (fun _ _ => rfl) (fun _ _ => rfl) (fun _ => rfl) (fun _ _ => rfl)
  (fun _ => .rfl) (fun _ => .rfl)
abbrev reg1 := regA m ρ 1 launch1 (W3 m ρ) (fun c => (body_obligation1 (V3 m ρ) c).loose) (fun _ _ => rfl) (fun _ _ => rfl) (fun _ => rfl) (fun _ _ => rfl)
  (fun _ => .rfl) (fun _ => .rfl)
abbrev reg2 := regA m ρ 2 launch2 (W5 m ρ) (fun c => (body_obligation2 (V5 m ρ) c).loose) (fun _ _ => rfl) (fun _ _ => rfl) (fun _ => rfl) (fun _ _ => rfl)
  (fun _ => .rfl) (fun _ => .rfl)
abbrev reg3 := regA m ρ 3 launch3 (W6 m ρ) (fun c => (body_obligation3 (V6 m ρ) c).loose) (fun _ _ => rfl) (fun _ _ => rfl) (fun _ => rfl) (fun _ _ => rfl)
  (fun _ => .rfl) (fun _ => .rfl)
abbrev reg4 := regA m ρ 4 launch4 (W7 m ρ) (fun c => (body_obligation4 (V7 m ρ) c).loose) (fun _ _ => rfl) (fun _ _ => rfl) (fun _ => rfl) (fun _ _ => rfl)
  (hin4 (V7 m ρ)) (hout4 (V7 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .region (reg4 m ρ) ]

theorem main_run (c : Dev nD) : main (F := F) c = Pipeline.Seg.run (segs m ρ) := (main_chain c).trans (by chain_rfl)

-- @main is a chain of three host stretches and five regions; each hands the next every unscoped buffer at a named valuation.
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hd

end
-- ==== Proof.K.Chain.lean ====
import proofs.«141866_j33835752358180_1_alg».proof.Proof.K.Run
import Idealize.ShloMosaic.Lib.StableHlo.Run

set_option maxRecDepth 16384

noncomputable section

namespace Cert.Kernel.Hd

open Idealize.ShloMosaic Idealize.ShloMosaic.TcCoe Idealize.ShloMosaic.Tactic
open Idealize.SL Idealize.SL.Sem
open Idealize.ShloMosaic.Pipeline (Dat Cfg Window)
open Cert.Kernel Cert.Kernel.Gen

variable {F : FTy → Type} [FloatOps F]
variable (m : (ℓ : Loc nD τ sig) → Buf (Elt F) ℓ) (ρ : Dev nD → PrngReg)

theorem isIn0 : ∀ w : Fin cfg0.W, Pipeline.arrRef spec0 w ≠ main_v1 → (cfg0.win w).isOut = false := by decide
theorem isIn1 : ∀ w : Fin cfg1.W, Pipeline.arrRef spec1 w ≠ main_v3 → (cfg1.win w).isOut = false := by decide
theorem isIn2 : ∀ w : Fin cfg2.W, Pipeline.arrRef spec2 w ≠ main_v5 → (cfg2.win w).isOut = false := by decide
theorem isIn3 : ∀ w : Fin cfg3.W, Pipeline.arrRef spec3 w ≠ main_v6_0 → Pipeline.arrRef spec3 w ≠ main_v6_1 → (cfg3.win w).isOut = false := by decide
theorem isIn4 : ∀ w : Fin cfg4.W, Pipeline.arrRef spec4 w ≠ main_v7 → (cfg4.win w).isOut = false := by decide

theorem W1_keep (c : Dev nD) (b : Ref sig .tc) (h : b ≠ main_v0) : W1 m ρ c (Proc.devRef .tc b) = W0 m ρ c (Proc.devRef .tc b) :=
  StableHlo.after_of_writes_sub hostOps0 _ hostOps0_writes (fun hm => h (List.mem_singleton.mp hm))
theorem W3_keep (c : Dev nD) (b : Ref sig .tc) (h : b ≠ main_v2) : W3 m ρ c (Proc.devRef .tc b) = W2 m ρ c (Proc.devRef .tc b) :=
  StableHlo.after_of_writes_sub hostOps1 _ hostOps1_writes (fun hm => h (List.mem_singleton.mp hm))
theorem W5_keep (c : Dev nD) (b : Ref sig .tc) (h : b ≠ main_v4) : W5 m ρ c (Proc.devRef .tc b) = W4 m ρ c (Proc.devRef .tc b) :=
  StableHlo.after_of_writes_sub hostOps2 _ hostOps2_writes (fun hm => h (List.mem_singleton.mp hm))

theorem W2_keep (c : Dev nD) (b : Ref sig .tc) (h : b ≠ main_v1) : W2 m ρ c (Proc.devRef .tc b) = W1 m ρ c (Proc.devRef .tc b) := by
  by_cases hw : ∃ w, Pipeline.arrRef spec0 w = b
  · obtain ⟨w, rfl⟩ := hw
    rw [W2_arr]
    exact ((dat0 (V1 m ρ) c).arrAt_in w (isIn0 w h) _).trans (A_eq0 (V1 m ρ) c w)
  · exact W2_of_ne m ρ c b fun w e => hw ⟨w, e⟩
theorem W4_keep (c : Dev nD) (b : Ref sig .tc) (h : b ≠ main_v3) : W4 m ρ c (Proc.devRef .tc b) = W3 m ρ c (Proc.devRef .tc b) := by
  by_cases hw : ∃ w, Pipeline.arrRef spec1 w = b
  · obtain ⟨w, rfl⟩ := hw
    rw [W4_arr]
    exact ((dat1 (V3 m ρ) c).arrAt_in w (isIn1 w h) _).trans (A_eq1 (V3 m ρ) c w)
  · exact W4_of_ne m ρ c b fun w e => hw ⟨w, e⟩
theorem W6_keep (c : Dev nD) (b : Ref sig .tc) (h : b ≠ main_v5) : W6 m ρ c (Proc.devRef .tc b) = W5 m ρ c (Proc.devRef .tc b) := by
  by_cases hw : ∃ w, Pipeline.arrRef spec2 w = b
  · obtain ⟨w, rfl⟩ := hw
    rw [W6_arr]
    exact ((dat2 (V5 m ρ) c).arrAt_in w (isIn2 w h) _).trans (A_eq2 (V5 m ρ) c w)
  · exact W6_of_ne m ρ c b fun w e => hw ⟨w, e⟩
theorem W7_keep (c : Dev nD) (b : Ref sig .tc) (h : b ≠ main_v6_0) (h' : b ≠ main_v6_1) : W7 m ρ c (Proc.devRef .tc b) = W6 m ρ c (Proc.devRef .tc b) := by
  by_cases hw : ∃ w, Pipeline.arrRef spec3 w = b
  · obtain ⟨w, rfl⟩ := hw
    rw [W7_arr]
    exact ((dat3 (V6 m ρ) c).arrAt_in w (isIn3 w h h') _).trans (A_eq3 (V6 m ρ) c w)
  · exact W7_of_ne m ρ c b fun w e => hw ⟨w, e⟩
theorem W8_keep (c : Dev nD) (b : Ref sig .tc) (h : b ≠ main_v7) : W8 m ρ c (Proc.devRef .tc b) = W7 m ρ c (Proc.devRef .tc b) := by
  by_cases hw : ∃ w, Pipeline.arrRef spec4 w = b
  · obtain ⟨w, rfl⟩ := hw
    rw [W8_arr]
    exact ((dat4 (V7 m ρ) c).arrAt_in w (isIn4 w h) _).trans (A_eq4 (V7 m ρ) c w)
  · exact W8_of_ne m ρ c b fun w e => hw ⟨w, e⟩

theorem W8_arg (c : Dev nD) (b : Ref sig .tc) (h0 : b ≠ main_v0) (h1 : b ≠ main_v1) (h2 : b ≠ main_v2) (h3 : b ≠ main_v3)
    (h4 : b ≠ main_v4) (h5 : b ≠ main_v5) (h60 : b ≠ main_v6_0) (h61 : b ≠ main_v6_1) (h7 : b ≠ main_v7) :
    W8 m ρ c (Proc.devRef .tc b) = m ((c : Thread nD τ).loc b) :=
  (W8_keep m ρ c b h7).trans <| (W7_keep m ρ c b h60 h61).trans <| (W6_keep m ρ c b h5).trans <| (W5_keep m ρ c b h4).trans <|
    (W4_keep m ρ c b h3).trans <| (W3_keep m ρ c b h2).trans <| (W2_keep m ρ c b h1).trans <| (W1_keep m ρ c b h0).trans rfl

theorem V1_arg (c : Dev nD) (b : Ref sig .tc) (h0 : b ≠ main_v0) : V1 m ρ c b = m ((c : Thread nD τ).loc b) :=
  (W1_keep m ρ c b h0).trans rfl
theorem V3_arg (c : Dev nD) (b : Ref sig .tc) (h0 : b ≠ main_v0) (h1 : b ≠ main_v1) (h2 : b ≠ main_v2) : V3 m ρ c b = m ((c : Thread nD τ).loc b) :=
  (W3_keep m ρ c b h2).trans <| (W2_keep m ρ c b h1).trans <| (W1_keep m ρ c b h0).trans rfl
theorem V5_arg (c : Dev nD) (b : Ref sig .tc) (h0 : b ≠ main_v0) (h1 : b ≠ main_v1) (h2 : b ≠ main_v2) (h3 : b ≠ main_v3) (h4 : b ≠ main_v4) :
    V5 m ρ c b = m ((c : Thread nD τ).loc b) :=
  (W5_keep m ρ c b h4).trans <| (W4_keep m ρ c b h3).trans <| (W3_keep m ρ c b h2).trans <| (W2_keep m ρ c b h1).trans <| (W1_keep m ρ c b h0).trans rfl

theorem V1_v0 (c : Dev nD) : V1 m ρ c main_v0 = shapeCast S1x1024 (m ((c : Thread nD τ).loc main_arg4)) shapeCasts_S1024_S1x1024 := by
  show StableHlo.after hostOps0 _ (Proc.devRef .tc main_v0) = _
  after_results; rfl
theorem V3_v2 (c : Dev nD) : V3 m ρ c main_v2 = shapeCast S1x1024 (V2 m ρ c main_arg6) shapeCasts_S1024_S1x1024 := by
  show StableHlo.after hostOps1 _ (Proc.devRef .tc main_v2) = _
  after_results; rfl
theorem V5_v4 (c : Dev nD) : V5 m ρ c main_v4 = shapeCast S1x1024 (V4 m ρ c main_arg8) shapeCasts_S1024_S1x1024 := by
  show StableHlo.after hostOps2 _ (Proc.devRef .tc main_v4) = _
  after_results; rfl
theorem V2_arg6 (c : Dev nD) : V2 m ρ c main_arg6 = m ((c : Thread nD τ).loc main_arg6) :=
  (W2_keep m ρ c main_arg6 (by decide)).trans <| (W1_keep m ρ c main_arg6 (by decide)).trans rfl
theorem V4_arg8 (c : Dev nD) : V4 m ρ c main_arg8 = m ((c : Thread nD τ).loc main_arg8) :=
  (W4_keep m ρ c main_arg8 (by decide)).trans <| (W3_keep m ρ c main_arg8 (by decide)).trans <| (W2_keep m ρ c main_arg8 (by decide)).trans <|
    (W1_keep m ρ c main_arg8 (by decide)).trans rfl

theorem V6_v1 (c : Dev nD) : V6 m ρ c main_v1 = (dat0 (V1 m ρ) c).arrAt 3 cfg0.N :=
  (W6_keep m ρ c main_v1 (by decide)).trans <| (W5_keep m ρ c main_v1 (by decide)).trans <| (W4_keep m ρ c main_v1 (by decide)).trans <|
    (W3_keep m ρ c main_v1 (by decide)).trans <| W2_arr m ρ c 3
theorem V6_v3 (c : Dev nD) : V6 m ρ c main_v3 = (dat1 (V3 m ρ) c).arrAt 3 cfg1.N :=
  (W6_keep m ρ c main_v3 (by decide)).trans <| (W5_keep m ρ c main_v3 (by decide)).trans <| W4_arr m ρ c 3

theorem V7_v6_0 (c : Dev nD) : V7 m ρ c main_v6_0 = (dat3 (V6 m ρ) c).arrAt 2 cfg3.N := W7_arr m ρ c 2
theorem V7_v6_1 (c : Dev nD) : V7 m ρ c main_v6_1 = (dat3 (V6 m ρ) c).arrAt 3 cfg3.N := W7_arr m ρ c 3
theorem V7_v5 (c : Dev nD) : V7 m ρ c main_v5 = (dat2 (V5 m ρ) c).arrAt 3 cfg2.N :=
  (W7_keep m ρ c main_v5 (by decide) (by decide)).trans <| W6_arr m ρ c 3

theorem W8_v7 (c : Dev nD) : W8 m ρ c (Proc.devRef .tc main_v7) = (dat4 (V7 m ρ) c).arrAt 3 cfg4.N := W8_arr m ρ c 3

theorem arg_end {mem : (ℓ : Loc nD τ sig) → Buf (Elt F) ℓ} (c : Dev nD)
    (h : ∀ b ∈ Pipeline.ucRefs τ sig, mem (((c : Thread nD τ)).1, b) = W8 m ρ c b) (b : Ref sig .tc)
    (hu : ¬ (Proc.devRef .tc b : DevRef τ sig).isScoped := by decide) (h0 : b ≠ main_v0 := by decide) (h1 : b ≠ main_v1 := by decide)
    (h2 : b ≠ main_v2 := by decide) (h3 : b ≠ main_v3 := by decide) (h4 : b ≠ main_v4 := by decide) (h5 : b ≠ main_v5 := by decide)
    (h60 : b ≠ main_v6_0 := by decide) (h61 : b ≠ main_v6_1 := by decide) (h7 : b ≠ main_v7 := by decide) :
    mem ((c.tc : Thread nD τ).loc b) = m ((c.tc : Thread nD τ).loc b) :=
  (h _ (mem_uc b hu)).trans (W8_arg m ρ c b h0 h1 h2 h3 h4 h5 h60 h61 h7)

-- No item of @main writes an argument array, so each ends as launched.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨arg_end m ρ c (h c) main_arg0,
     arg_end m ρ c (h c) main_arg1,
     arg_end m ρ c (h c) main_arg2,
     arg_end m ρ c (h c) main_arg3,
     arg_end m ρ c (h c) main_arg4,
     arg_end m ρ c (h c) main_arg5,
     arg_end m ρ c (h c) main_arg6,
     arg_end m ρ c (h c) main_arg7,
     arg_end m ρ c (h c) main_arg8⟩)
    (run_all m ρ)

end Cert.Kernel.Hd

end
-- ==== Proof.KI.Lin0.lean ====
import proofs.«141866_j33835752358180_1_alg».proof.Proof.Gen.KernelIdeal.Launch
import proofs.«141866_j33835752358180_1_alg».proof.Proof.Gen.KernelIdeal.Skeleton
import proofs.«141866_j33835752358180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_m : Rect S1024x1024 := Rect.unit (s := S1024x1024) ![0, 0] S1024x1024.size inb_S1024x1024_S1024x1024_0_0

abbrev r0_b : Rect S1x1024 := Rect.unit (s := S1x1024) ![0, 0] S1x1024.size inb_S1x1024_S1x1024_0_0

def out0_3 (x0 : Vec F S1024x1024 .f32) (x1 : Vec F S1024x1024 .f32) (x2 : Vec F S1x1024 .f32) : Vec F S1024x1024 .f32 :=
  View.canon [⟨r0_m, k0_pay1 (View.ld x0 r0_m) (View.ld x1 r0_m) (View.ld x2 r0_b)⟩]

theorem cover0_3 (p0 : Vec F S1024x1024 .f32) (y : S1024x1024.Idx) :
    ∃ pc ∈ ([⟨r0_m, p0⟩] : List (View.Piece (Elt F) S1024x1024 .f32)), y ∈ pc.1.set :=
  View.cover_of_tiled [⟨r0_m, p0⟩] S1024x1024.size (by rfl) y

-- A dense layer's body reads three whole blocks and overwrites the fourth with `out0_3` of them.
def KTriple (body : (i : grid0.Coords) → (arg1 : Memref sig .tc .vmem S1024x1024 .f32) → arg1.IsWhole → (arg2 : Memref sig .tc .vmem S1024x1024 .f32) → arg2.IsWhole →
    (arg3 : Memref sig .tc .vmem S1x1024 .f32) → arg3.IsWhole → (arg4 : Memref sig .tc .vmem S1024x1024 .f32) → arg4.IsWhole → Prog (TpuEff nD τ sig (Elt F) Λ₀ .tc) PUnit) : Prop :=
  ∀ (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .f32) (x1 : Vec F S1024x1024 .f32) (x2 : Vec F S1x1024 .f32) (K : PUnit → sProp 𝕄),
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (body i arg1 harg1 arg2 harg2 arg3 harg3 arg4 harg4) K

set_option maxHeartbeats 1000000 in
theorem sound_kernel0 : KTriple (F := F) cc0__linear_kernel := by
  intro c E i arg1 harg1 arg2 harg2 arg3 harg3 arg4 harg4 x0 x1 x2 K
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  isplitl [HΦ]; · iexact HΦ
  iframe Ho H0 H1 H2 H3

theorem body_obligation0 (c : Dev nD) : BodyObligation (dat0 (F := F) V c) (defs₀ (F := F)) Variants.none () Set.univ := fun t => by
  rw [bigSep_W0, bigSep_W0]
  exact sound_body0 V c t

end Cert.KernelIdeal.Hd

end
-- ==== Proof.KI.Lin1.lean ====
import proofs.«141866_j33835752358180_1_alg».proof.Proof.KI.Lin0

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem sound_kernel1 : KTriple (F := F) cc1__linear_kernel := sound_kernel0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out0_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out0_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  isplitl [HΦ]; · iexact HΦ
  iframe Ho H0 H1 H2 H3

theorem body_obligation1 (c : Dev nD) : BodyObligation (dat1 (F := F) V c) (defs₀ (F := F)) Variants.none () Set.univ := fun t => by
  rw [bigSep_W1, bigSep_W1]
  exact sound_body1 V c t

end Cert.KernelIdeal.Hd

end
-- ==== Proof.KI.Lin2.lean ====
import proofs.«141866_j33835752358180_1_alg».proof.Proof.KI.Lin0

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem sound_kernel2 : KTriple (F := F) cc2__linear_kernel := sound_kernel0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out0_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out0_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe H0 H1 H2
  isplitl [H3]; · iexists _; iexact H3
  iintro ⟨H0, H1, H2, H3⟩
  isplitl [HΦ]; · iexact HΦ
  iframe Ho H0 H1 H2 H3

theorem body_obligation2 (c : Dev nD) : BodyObligation (dat2 (F := F) V c) (defs₀ (F := F)) Variants.none () Set.univ := fun t => by
  rw [bigSep_W2, bigSep_W2]
  exact sound_body2 V c t

end Cert.KernelIdeal.Hd

end
-- ==== Proof.KI.Sc.Runs.lean ====
import proofs.«141866_j33835752358180_1_alg».proof.Proof.Gen.KernelIdeal.Launch
import proofs.«141866_j33835752358180_1_alg».proof.Proof.Gen.KernelIdeal.Skeleton
import proofs.«141866_j33835752358180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 4 = 0 :=
  (by decide +kernel : ∀ t : Fin grid3.N, cond3_0 (grid3.coords t) ↔ t.val % 4 = 0)

abbrev VO3_2 : View sig .tc .vmem S512x1024 .bf16 := (Memref.whole cc3_stg2_0 : Memref sig .tc .vmem S512x1024 .bf16).view

abbrev VO3_3 : View sig .tc .vmem S512x1 .f32 := (Memref.whole cc3_stg3_0 : Memref sig .tc .vmem S512x1 .f32).view

abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1 .f32 := win3_3.stage (cfg3.slots t 3)
abbrev hs3_3 (t : Fin cfg3.N) : (ms3_3 t).IsWhole := hstage3_3 ((cfg3.slots t 3).cast nbuf3_3)

-- The body's arguments at one grid point: its coordinates and four whole memrefs.
structure Pt3 where
  i : grid3.Coords
  a2 : Memref sig .tc .vmem S512x1024 .f32
  h2 : a2.IsWhole
  a3 : Memref sig .tc .vmem S1024x1024 .f32
  h3 : a3.IsWhole
  a4 : Memref sig .tc .vmem S512x1024 .bf16
  h4 : a4.IsWhole
  a5 : Memref sig .tc .vmem S512x1 .f32
  h5 : a5.IsWhole

abbrev pt3 (t : Fin cfg3.N) : Pt3 := ⟨grid3.coords t, ms3_0 t, hs3_0 t, ms3_1 t, hs3_1 t, ms3_2 t, hs3_2 t, ms3_3 t, hs3_3 t⟩

end Cert.KernelIdeal.Hd

end
-- ==== Proof.KI.Sc.RunA.lean ====
import proofs.«141866_j33835752358180_1_alg».proof.Proof.KI.Sc.Runs

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun3_A (c : Dev nD) (P : Pt3) (hc0 : cond3_0 P.i) (x0 : Vec F S512x1024 .f32) (x1 : Vec F S1024x1024 .f32) :
    Σ' (L2 : List (View.Piece (Elt F) S512x1024 .bf16)), { L3 : List (View.Piece (Elt F) S512x1 .f32) //
      ∀ (E : Set ℕ) (K : PUnit → sProp 𝕄),
        iprop(owns (c : Thread nD τ) P.a2 fullShare x0 ∗ owns (c : Thread nD τ) P.a3 fullShare x1
            ∗ (∃ d, owns (c : Thread nD τ) P.a4 fullShare d) ∗ (∃ d, owns (c : Thread nD τ) P.a5 fullShare d)
            ∗ (iprop(owns (c : Thread nD τ) P.a2 fullShare x0 ∗ owns (c : Thread nD τ) P.a3 fullShare x1
                ∗ (∃ f, P.a4.view.loc (c : Thread nD τ) ↦[P.a4.view.set]{fullShare} P.a4.view.writes (Elt F) f L2)
                ∗ (∃ f, P.a5.view.loc (c : Thread nD τ) ↦[P.a5.view.set]{fullShare} P.a5.view.writes (Elt F) f L3)) -∗ K ⟨⟩))
          ⊢ wp frame (wpE (defs₀ (F := F)) Variants.none c none) E (cc3_kernel P.i P.a2 P.h2 P.a3 P.h3 P.a4 P.h4 P.a5 P.h5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%d3, %f3, -, H3⟩, Hk⟩
    obtain rfl := P.h2.eq_unread hf0; obtain rfl := P.h3.eq_unread hf1
    sl_exec (disch := first | exact hc0)
    sl_step
    iapply Hk
    isplitl [H0]
    · iexists _; isplitr; · ipureintro; exact P.h2.read_unread _
      iexact H0
    isplitl [H1]
    · iexists _; isplitr; · ipureintro; exact P.h3.read_unread _
      iexact H1
    isplitl [H2]
    · iexists _; iexact H2
    iexists _; iexact H3

end Cert.KernelIdeal.Hd

end
-- ==== Proof.KI.Sc.RunB.lean ====
import proofs.«141866_j33835752358180_1_alg».proof.Proof.KI.Sc.RunA

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun3_B (c : Dev nD) (P : Pt3) (hc0 : ¬cond3_0 P.i) (x0 : Vec F S512x1024 .f32) (x1 : Vec F S1024x1024 .f32) (xo3 : Vec F S512x1 .f32) :
    Σ' (L2 : List (View.Piece (Elt F) S512x1024 .bf16)), { L3 : List (View.Piece (Elt F) S512x1 .f32) //
      ∀ (E : Set ℕ) (K : PUnit → sProp 𝕄),
        iprop(owns (c : Thread nD τ) P.a2 fullShare x0 ∗ owns (c : Thread nD τ) P.a3 fullShare x1
            ∗ (∃ d, owns (c : Thread nD τ) P.a4 fullShare d) ∗ owns (c : Thread nD τ) P.a5 fullShare xo3
            ∗ (iprop(owns (c : Thread nD τ) P.a2 fullShare x0 ∗ owns (c : Thread nD τ) P.a3 fullShare x1
                ∗ (∃ f, P.a4.view.loc (c : Thread nD τ) ↦[P.a4.view.set]{fullShare} P.a4.view.writes (Elt F) f L2)
                ∗ (∃ f, P.a5.view.loc (c : Thread nD τ) ↦[P.a5.view.set]{fullShare} P.a5.view.writes (Elt F) f L3)) -∗ K ⟨⟩))
          ⊢ wp frame (wpE (defs₀ (F := F)) Variants.none c none) E (cc3_kernel P.i P.a2 P.h2 P.a3 P.h3 P.a4 P.h4 P.a5 P.h5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%f3, %hf3, H3⟩, Hk⟩
    obtain rfl := P.h2.eq_unread hf0; obtain rfl := P.h3.eq_unread hf1; obtain rfl := P.h5.eq_unread hf3
    sl_exec (disch := first | exact hc0)
    sl_step
    iapply Hk
    isplitl [H0]
    · iexists _; isplitr; · ipureintro; exact P.h2.read_unread _
      iexact H0
    isplitl [H1]
    · iexists _; isplitr; · ipureintro; exact P.h3.read_unread _
      iexact H1
    isplitl [H2]
    · iexists _; iexact H2
    iexists _; iexact H3

end Cert.KernelIdeal.Hd

end
-- ==== Proof.KI.Sc.lean ====
import proofs.«141866_j33835752358180_1_alg».proof.Proof.KI.Sc.RunB

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (P : Pt3)

section
variable (hc0 : cond3_0 P.i) (x0 : Vec F S512x1024 .f32) (x1 : Vec F S1024x1024 .f32)

theorem cover3_A_2 (y : S512x1024.Idx) : ∃ pc ∈ (kernelRun3_A c P hc0 x0 x1).1, y ∈ pc.1.set :=
  View.cover_of_tiledL (kernelRun3_A c P hc0 x0 x1).1 S512x1024.size (by sl_kernel_rfl) y

theorem cover3_A_3 (y : S512x1.Idx) : ∃ pc ∈ (kernelRun3_A c P hc0 x0 x1).2.1, y ∈ pc.1.set :=
  View.cover_of_tiledL (kernelRun3_A c P hc0 x0 x1).2.1 S512x1.size (by sl_kernel_rfl) y

def out3_A_2 : Vec F S512x1024 .bf16 := VO3_2.read (Elt F) (VO3_2.writes (Elt F) VO3_2.junk (kernelRun3_A c P hc0 x0 x1).1)

def out3_A_3 : Vec F S512x1 .f32 := VO3_3.read (Elt F) (VO3_3.writes (Elt F) VO3_3.junk (kernelRun3_A c P hc0 x0 x1).2.1)

end

variable (hc0 : ¬cond3_0 P.i) (x0 : Vec F S512x1024 .f32) (x1 : Vec F S1024x1024 .f32) (xo3 : Vec F S512x1 .f32)

theorem cover3_B_2 (y : S512x1024.Idx) : ∃ pc ∈ (kernelRun3_B c P hc0 x0 x1 xo3).1, y ∈ pc.1.set :=
  View.cover_of_tiledL (kernelRun3_B c P hc0 x0 x1 xo3).1 S512x1024.size (by sl_kernel_rfl) y

theorem cover3_B_3 (y : S512x1.Idx) : ∃ pc ∈ (kernelRun3_B c P hc0 x0 x1 xo3).2.1, y ∈ pc.1.set :=
  View.cover_of_tiledL (kernelRun3_B c P hc0 x0 x1 xo3).2.1 S512x1.size (by sl_kernel_rfl) y

def out3_B_2 : Vec F S512x1024 .bf16 := VO3_2.read (Elt F) (VO3_2.writes (Elt F) VO3_2.junk (kernelRun3_B c P hc0 x0 x1 xo3).1)

def out3_B_3 : Vec F S512x1 .f32 := VO3_3.read (Elt F) (VO3_3.writes (Elt F) VO3_3.junk (kernelRun3_B c P hc0 x0 x1 xo3).2.1)

end

-- The exponentials' block and the row sums after a point: at the first point of a row, and at a later one over the sums `xo3` so far.
def ptA3 (c : Dev nD) (t : Fin cfg3.N) (h0 : t.val % 4 = 0) : Vec F S512x1024 .bf16 × Vec F S512x1 .f32 :=
  (out3_A_2 c (pt3 t) ((hcond3_0 t).mpr h0) (iblk3 V c 0 t) (iblk3 V c 1 t), out3_A_3 c (pt3 t) ((hcond3_0 t).mpr h0) (iblk3 V c 0 t) (iblk3 V c 1 t))

def ptB3 (c : Dev nD) (t : Fin cfg3.N) (h0 : ¬t.val % 4 = 0) (xo3 : Vec F S512x1 .f32) : Vec F S512x1024 .bf16 × Vec F S512x1 .f32 :=
  (out3_B_2 c (pt3 t) (fun h => h0 ((hcond3_0 t).mp h)) (iblk3 V c 0 t) (iblk3 V c 1 t) xo3, out3_B_3 c (pt3 t) (fun h => h0 ((hcond3_0 t).mp h)) (iblk3 V c 0 t) (iblk3 V c 1 t) xo3)

def outsAt3 (c : Dev nD) : (n : ℕ) → n < cfg3.N → Vec F S512x1024 .bf16 × Vec F S512x1 .f32
  | 0, hn => ptA3 V c ⟨0, hn⟩ (Nat.zero_mod _)
  | n + 1, hn =>
    if h0 : (n + 1) % 4 = 0 then ptA3 V c ⟨n + 1, hn⟩ h0
    else ptB3 V c ⟨n + 1, hn⟩ h0 (outsAt3 c n (Nat.lt_of_succ_lt hn)).2

theorem outsAt3_A (c : Dev nD) (t : Fin cfg3.N) (h0 : t.val % 4 = 0) : outsAt3 V c t.val t.isLt = ptA3 V c t h0 := by
  obtain ⟨n, hn⟩ := t
  cases n with
  | zero => exact rfl
  | succ n => exact (dif_pos h0).trans rfl

theorem outsAt3_B (c : Dev nD) (t : Fin cfg3.N) (h0 : ¬t.val % 4 = 0) :
    outsAt3 V c t.val t.isLt = ptB3 V c t h0 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d

theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem before3_3_B (c : Dev nD) (t : Fin cfg3.N) (h0 : ¬t.val % 4 = 0) (d) :
    (dat3 V c).before 3 t d = (outsAt3 V c (t.val - 1) (Nat.lt_of_le_of_lt (Nat.sub_le _ _) t.isLt)).2 := by
  have hN : t.val < 32 := lt_of_lt_of_eq t.isLt (show cfg3.N = 32 from N_3)
  rw [Dat.before_out_kept _ 3 rfl t (by omega) (Bool.eq_false_iff.mpr fun h => by have := (flush3_3 _).mp h; dsimp only at this; omega)
    (fun _ => rfl) (fun _ _ => rfl)]
  dsimp only [dat3]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  have hN : t.val < 32 := lt_of_lt_of_eq t.isLt (show cfg3.N = 32 from N_3)
  by_cases h0 : t.val % 4 = 0
  · rw [outsAt3_A V c t h0]
    unfold ptA3 out3_A_2 out3_A_3; (try dsimp only)
    iintro ⟨HΦ, Ho, ⟨%d0, H0⟩, ⟨%d1, H1⟩, ⟨%d2, H2⟩, ⟨%d3, H3⟩⟩
    iapply ((kernelRun3_A c (pt3 t) ((hcond3_0 t).mpr h0) (iblk3 V c 0 t) (iblk3 V c 1 t)).2.2 Set.univ _)
    iframe H0 H1
    isplitl [H2]; · iexists _; iexact H2
    isplitl [H3]; · iexists _; iexact H3
    iintro ⟨H0, H1, ⟨%e2, H2⟩, ⟨%e3, H3⟩⟩
    isplitl [HΦ]; · iexact HΦ
    iframe Ho H0 H1
    isplitl [H2]
    · unfold owns; iexists _; isplitr
      swap; · iexact H2
      ipureintro; exact View.read_writes_of_cover _ _ _ _ _ (cover3_A_2 c _ _ _ _)
    unfold owns; iexists _; isplitr
    swap; · iexact H3
    ipureintro; exact View.read_writes_of_cover _ _ _ _ _ (cover3_A_3 c _ _ _ _)
  · rw [outsAt3_B V c t h0]
    simp only [before3_3_B V c t h0]
    unfold ptB3 out3_B_2 out3_B_3; (try dsimp only)
    iintro ⟨HΦ, Ho, ⟨%d0, H0⟩, ⟨%d1, H1⟩, ⟨%d2, H2⟩, ⟨%d3, H3⟩⟩
    iapply ((kernelRun3_B c (pt3 t) (fun h => h0 ((hcond3_0 t).mp h)) (iblk3 V c 0 t) (iblk3 V c 1 t) _).2.2 Set.univ _)
    iframe H0 H1
    isplitl [H2]; · iexists _; iexact H2
    iframe H3
    iintro ⟨H0, H1, ⟨%e2, H2⟩, ⟨%e3, H3⟩⟩
    isplitl [HΦ]; · iexact HΦ
    iframe Ho H0 H1
    isplitl [H2]
    · unfold owns; iexists _; isplitr
      swap; · iexact H2
      ipureintro; exact View.read_writes_of_cover _ _ _ _ _ (cover3_B_2 c _ _ _ _ _)
    unfold owns; iexists _; isplitr
    swap; · iexact H3
    ipureintro; exact View.read_writes_of_cover _ _ _ _ _ (cover3_B_3 c _ _ _ _ _)

theorem body_obligation3 (c : Dev nD) : BodyObligation (dat3 (F := F) V c) (defs₀ (F := F)) Variants.none () Set.univ := fun t => by
  rw [bigSep_W3, bigSep_W3]
  exact sound_body3 V c t

end Cert.KernelIdeal.Hd

end
-- ==== Proof.KI.Out.Runs.lean ====
import proofs.«141866_j33835752358180_1_alg».proof.Proof.Gen.KernelIdeal.Launch
import proofs.«141866_j33835752358180_1_alg».proof.Proof.Gen.KernelIdeal.Skeleton
import proofs.«141866_j33835752358180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1

theorem hcond4_0 : ∀ t : Fin cfg4.N, cond4_0 (grid4.coords t) ↔ t.val % 4 = 0 :=
  (by decide +kernel : ∀ t : Fin grid4.N, cond4_0 (grid4.coords t) ↔ t.val % 4 = 0)

abbrev cond4_1 (i : grid4.Coords) : Prop := k4_cond2 i = 1#1

theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

theorem idleAt4_3_A : ∀ t : Fin cfg4.N, cond4_0 (grid4.coords t) → ¬cond4_1 (grid4.coords t) → cfg4.idle 3 (grid4.coords t) = true := by decide +kernel

theorem noFlush4_3_A : ∀ t : Fin cfg4.N, cond4_0 (grid4.coords t) → ¬cond4_1 (grid4.coords t) → (cfg4.win 3).flush t = false := by decide +kernel

theorem idleAt4_3_B : ∀ t : Fin cfg4.N, ¬cond4_0 (grid4.coords t) → ¬cond4_1 (grid4.coords t) → cfg4.idle 3 (grid4.coords t) = true := by decide +kernel

theorem noFlush4_3_B : ∀ t : Fin cfg4.N, ¬cond4_0 (grid4.coords t) → ¬cond4_1 (grid4.coords t) → (cfg4.win 3).flush t = false := by decide +kernel

theorem liveAt4_3_C : ∀ t : Fin cfg4.N, ¬cond4_0 (grid4.coords t) → cond4_1 (grid4.coords t) → cfg4.idle 3 (grid4.coords t) = false := by decide +kernel

abbrev VO4_3 : View sig .tc .vmem S512x1024 .f32 := (Memref.whole cc4_stg3_0 : Memref sig .tc .vmem S512x1024 .f32).view

abbrev ms4_0 (t : Fin cfg4.N) : Memref sig .tc .vmem S512x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x1024 .f32 := win4_3.stage (cfg4.slots t 3)
abbrev hs4_3 (t : Fin cfg4.N) : (ms4_3 t).IsWhole := hstage4_3 ((cfg4.slots t 3).cast nbuf4_3)

abbrev scM4_0 : Memref sig .tc .vmem S512x1024 .f32 := Memref.whole cc4_scratch0

abbrev VS4_0 : View sig .tc .vmem S512x1024 .f32 := scM4_0.view

-- The body's arguments at one grid point: its coordinates and five whole memrefs, the last one the accumulator.
structure Pt4 where
  i : grid4.Coords
  a2 : Memref sig .tc .vmem S512x1024 .bf16
  h2 : a2.IsWhole
  a3 : Memref sig .tc .vmem S1024x1024 .f32
  h3 : a3.IsWhole
  a4 : Memref sig .tc .vmem S1024x1 .f32
  h4 : a4.IsWhole
  a5 : Memref sig .tc .vmem S512x1024 .f32
  h5 : a5.IsWhole
  a6 : Memref sig .tc .vmem S512x1024 .f32
  h6 : a6.IsWhole

abbrev pt4 (t : Fin cfg4.N) : Pt4 :=
  ⟨grid4.coords t, ms4_0 t, hs4_0 t, ms4_1 t, hs4_1 t, ms4_2 t, hs4_2 t, ms4_3 t, hs4_3 t, scM4_0, Memref.isWhole_whole _⟩

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4_0, owns_whole]; try rfl

end Cert.KernelIdeal.Hd

end
-- ==== Proof.KI.Out.RunA.lean ====
import proofs.«141866_j33835752358180_1_alg».proof.Proof.KI.Out.Runs

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_A (c : Dev nD) (P : Pt4) (hc0 : cond4_0 P.i) (hc1 : ¬cond4_1 P.i)
    (x0 : Vec F S512x1024 .bf16) (x1 : Vec F S1024x1024 .f32) (x2 : Vec F S1024x1 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) P.a2 fullShare x0 ∗ owns (c : Thread nD τ) P.a3 fullShare x1 ∗ owns (c : Thread nD τ) P.a4 fullShare x2 ∗ owns (c : Thread nD τ) P.a5 fullShare xi3 ∗ (∃ d, owns (c : Thread nD τ) P.a6 fullShare d)
            ∗ (iprop(owns (c : Thread nD τ) P.a2 fullShare x0 ∗ owns (c : Thread nD τ) P.a3 fullShare x1 ∗ owns (c : Thread nD τ) P.a4 fullShare x2 ∗ owns (c : Thread nD τ) P.a5 fullShare xi3 ∗ (∃ f, P.a6.view.loc (c : Thread nD τ) ↦[P.a6.view.set]{fullShare} P.a6.view.writes (Elt F) f LS0)) -∗ K ⟨⟩))
          ⊢ wp frame (wpE (defs₀ (F := F)) Variants.none c none) E (cc4__output_kernel P.i P.a2 P.h2 P.a3 P.h3 P.a4 P.h4 P.a5 P.h5 P.a6 P.h6) K } := by
  refine ⟨[], ?_, fun xi3 E K => ?run⟩
  case run =>
    simp only [cc4__output_kernel_eq_skeleton]; unfold cc4__output_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := P.h2.eq_unread hf0; obtain rfl := P.h3.eq_unread hf1; obtain rfl := P.h4.eq_unread hf2; obtain rfl := P.h5.eq_unread hf3
    sl_exec (disch := first | exact hc0 | exact hc1)
    sl_step
    iapply Hk
    isplitl [H0]
    · iexists _; isplitr; · ipureintro; exact P.h2.read_unread _
      iexact H0
    isplitl [H1]
    · iexists _; isplitr; · ipureintro; exact P.h3.read_unread _
      iexact H1
    isplitl [H2]
    · iexists _; isplitr; · ipureintro; exact P.h4.read_unread _
      iexact H2
    isplitl [H3]
    · iexists _; isplitr; · ipureintro; exact P.h5.read_unread _
      iexact H3
    iexists _; iexact HS0

end Cert.KernelIdeal.Hd

end
-- ==== Proof.KI.Out.RunB.lean ====
import proofs.«141866_j33835752358180_1_alg».proof.Proof.KI.Out.RunA

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_B (c : Dev nD) (P : Pt4) (hc0 : ¬cond4_0 P.i) (hc1 : ¬cond4_1 P.i)
    (x0 : Vec F S512x1024 .bf16) (x1 : Vec F S1024x1024 .f32) (x2 : Vec F S1024x1 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) P.a2 fullShare x0 ∗ owns (c : Thread nD τ) P.a3 fullShare x1 ∗ owns (c : Thread nD τ) P.a4 fullShare x2 ∗ owns (c : Thread nD τ) P.a5 fullShare xi3 ∗ owns (c : Thread nD τ) P.a6 fullShare xs0
            ∗ (iprop(owns (c : Thread nD τ) P.a2 fullShare x0 ∗ owns (c : Thread nD τ) P.a3 fullShare x1 ∗ owns (c : Thread nD τ) P.a4 fullShare x2 ∗ owns (c : Thread nD τ) P.a5 fullShare xi3 ∗ (∃ f, P.a6.view.loc (c : Thread nD τ) ↦[P.a6.view.set]{fullShare} P.a6.view.writes (Elt F) f LS0)) -∗ K ⟨⟩))
          ⊢ wp frame (wpE (defs₀ (F := F)) Variants.none c none) E (cc4__output_kernel P.i P.a2 P.h2 P.a3 P.h3 P.a4 P.h4 P.a5 P.h5 P.a6 P.h6) K } := by
  refine ⟨[], ?_, fun xi3 E K => ?run⟩
  case run =>
    simp only [cc4__output_kernel_eq_skeleton]; unfold cc4__output_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := P.h2.eq_unread hf0; obtain rfl := P.h3.eq_unread hf1; obtain rfl := P.h4.eq_unread hf2; obtain rfl := P.h5.eq_unread hf3; obtain rfl := P.h6.eq_unread hfs0
    sl_exec (disch := first | exact hc0 | exact hc1)
    sl_step
    iapply Hk
    isplitl [H0]
    · iexists _; isplitr; · ipureintro; exact P.h2.read_unread _
      iexact H0
    isplitl [H1]
    · iexists _; isplitr; · ipureintro; exact P.h3.read_unread _
      iexact H1
    isplitl [H2]
    · iexists _; isplitr; · ipureintro; exact P.h4.read_unread _
      iexact H2
    isplitl [H3]
    · iexists _; isplitr; · ipureintro; exact P.h5.read_unread _
      iexact H3
    iexists _; iexact HS0

end Cert.KernelIdeal.Hd

end
-- ==== Proof.KI.Out.RunC.lean ====
import proofs.«141866_j33835752358180_1_alg».proof.Proof.KI.Out.RunB

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_C (c : Dev nD) (P : Pt4) (hc0 : ¬cond4_0 P.i) (hc1 : cond4_1 P.i)
    (x0 : Vec F S512x1024 .bf16) (x1 : Vec F S1024x1024 .f32) (x2 : Vec F S1024x1 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) P.a2 fullShare x0 ∗ owns (c : Thread nD τ) P.a3 fullShare x1 ∗ owns (c : Thread nD τ) P.a4 fullShare x2 ∗ (∃ d, owns (c : Thread nD τ) P.a5 fullShare d) ∗ owns (c : Thread nD τ) P.a6 fullShare xs0
            ∗ (iprop(owns (c : Thread nD τ) P.a2 fullShare x0 ∗ owns (c : Thread nD τ) P.a3 fullShare x1 ∗ owns (c : Thread nD τ) P.a4 fullShare x2 ∗ (∃ f, P.a5.view.loc (c : Thread nD τ) ↦[P.a5.view.set]{fullShare} P.a5.view.writes (Elt F) f L3) ∗ (∃ f, P.a6.view.loc (c : Thread nD τ) ↦[P.a6.view.set]{fullShare} P.a6.view.writes (Elt F) f LS0)) -∗ K ⟨⟩))
          ⊢ wp frame (wpE (defs₀ (F := F)) Variants.none c none) E (cc4__output_kernel P.i P.a2 P.h2 P.a3 P.h3 P.a4 P.h4 P.a5 P.h5 P.a6 P.h6) K } := by
  refine ⟨?_, ?_, fun E K => ?run⟩
  case run =>
    simp only [cc4__output_kernel_eq_skeleton]; unfold cc4__output_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := P.h2.eq_unread hf0; obtain rfl := P.h3.eq_unread hf1; obtain rfl := P.h4.eq_unread hf2; obtain rfl := P.h6.eq_unread hfs0
    sl_exec (disch := first | exact hc0 | exact hc1)
    sl_step
    iapply Hk
    isplitl [H0]
    · iexists _; isplitr; · ipureintro; exact P.h2.read_unread _
      iexact H0
    isplitl [H1]
    · iexists _; isplitr; · ipureintro; exact P.h3.read_unread _
      iexact H1
    isplitl [H2]
    · iexists _; isplitr; · ipureintro; exact P.h4.read_unread _
      iexact H2
    isplitl [H3]; · iexists _; iexact H3
    iexists _; iexact HS0

end Cert.KernelIdeal.Hd

end
-- ==== Proof.KI.Out.lean ====
import proofs.«141866_j33835752358180_1_alg».proof.Proof.KI.Out.RunC

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (P : Pt4)

section
variable (hc0 : cond4_0 P.i) (hc1 : ¬cond4_1 P.i) (x0 : Vec F S512x1024 .bf16) (x1 : Vec F S1024x1024 .f32) (x2 : Vec F S1024x1 .f32)

def out4_A_3 : Vec F S512x1024 .f32 := VO4_3.read (Elt F) (VO4_3.writes (Elt F) VO4_3.junk (kernelRun4_A c P hc0 hc1 x0 x1 x2).1)

theorem scover4_A_0 (y : S512x1024.Idx) : ∃ pc ∈ (kernelRun4_A c P hc0 hc1 x0 x1 x2).2.1, y ∈ pc.1.set :=
  View.cover_of_tiledL (kernelRun4_A c P hc0 hc1 x0 x1 x2).2.1 S512x1024.size (by sl_kernel_rfl) y

def sout4_A_0 : Vec F S512x1024 .f32 := VS4_0.read (Elt F) (VS4_0.writes (Elt F) VS4_0.junk (kernelRun4_A c P hc0 hc1 x0 x1 x2).2.1)

end

section
variable (hc0 : ¬cond4_0 P.i) (hc1 : ¬cond4_1 P.i) (x0 : Vec F S512x1024 .bf16) (x1 : Vec F S1024x1024 .f32) (x2 : Vec F S1024x1 .f32) (xs0 : Vec F S512x1024 .f32)

def out4_B_3 : Vec F S512x1024 .f32 := VO4_3.read (Elt F) (VO4_3.writes (Elt F) VO4_3.junk (kernelRun4_B c P hc0 hc1 x0 x1 x2 xs0).1)

theorem scover4_B_0 (y : S512x1024.Idx) : ∃ pc ∈ (kernelRun4_B c P hc0 hc1 x0 x1 x2 xs0).2.1, y ∈ pc.1.set :=
  View.cover_of_tiledL (kernelRun4_B c P hc0 hc1 x0 x1 x2 xs0).2.1 S512x1024.size (by sl_kernel_rfl) y

def sout4_B_0 : Vec F S512x1024 .f32 := VS4_0.read (Elt F) (VS4_0.writes (Elt F) VS4_0.junk (kernelRun4_B c P hc0 hc1 x0 x1 x2 xs0).2.1)

end

section
variable (hc0 : ¬cond4_0 P.i) (hc1 : cond4_1 P.i) (x0 : Vec F S512x1024 .bf16) (x1 : Vec F S1024x1024 .f32) (x2 : Vec F S1024x1 .f32) (xs0 : Vec F S512x1024 .f32)

theorem cover4_C_3 (y : S512x1024.Idx) : ∃ pc ∈ (kernelRun4_C c P hc0 hc1 x0 x1 x2 xs0).1, y ∈ pc.1.set :=
  View.cover_of_tiledL (kernelRun4_C c P hc0 hc1 x0 x1 x2 xs0).1 S512x1024.size (by sl_kernel_rfl) y

def out4_C_3 : Vec F S512x1024 .f32 := VO4_3.read (Elt F) (VO4_3.writes (Elt F) VO4_3.junk (kernelRun4_C c P hc0 hc1 x0 x1 x2 xs0).1)

theorem scover4_C_0 (y : S512x1024.Idx) : ∃ pc ∈ (kernelRun4_C c P hc0 hc1 x0 x1 x2 xs0).2.1, y ∈ pc.1.set :=
  View.cover_of_tiledL (kernelRun4_C c P hc0 hc1 x0 x1 x2 xs0).2.1 S512x1024.size (by sl_kernel_rfl) y

def sout4_C_0 : Vec F S512x1024 .f32 := VS4_0.read (Elt F) (VS4_0.writes (Elt F) VS4_0.junk (kernelRun4_C c P hc0 hc1 x0 x1 x2 xs0).2.1)

end

end

-- The result block and the accumulator after a point: at the first point of a row, at a middle one, at the last.
def ptA4 (c : Dev nD) (t : Fin cfg4.N) (h0 : t.val % 4 = 0) : Vec F S512x1024 .f32 × Vec F S512x1024 .f32 :=
  (out4_A_3 c (pt4 t) ((hcond4_0 t).mpr h0) (fun h => by have := (hcond4_1 t).mp h; omega) (iblk4 V c 0 t) (iblk4 V c 1 t) (iblk4 V c 2 t),
   sout4_A_0 c (pt4 t) ((hcond4_0 t).mpr h0) (fun h => by have := (hcond4_1 t).mp h; omega) (iblk4 V c 0 t) (iblk4 V c 1 t) (iblk4 V c 2 t))

def ptB4 (c : Dev nD) (t : Fin cfg4.N) (h0 : ¬t.val % 4 = 0) (h1 : ¬t.val % 4 = 3) (xs0 : Vec F S512x1024 .f32) : Vec F S512x1024 .f32 × Vec F S512x1024 .f32 :=
  (out4_B_3 c (pt4 t) (fun h => h0 ((hcond4_0 t).mp h)) (fun h => h1 ((hcond4_1 t).mp h)) (iblk4 V c 0 t) (iblk4 V c 1 t) (iblk4 V c 2 t) xs0,
   sout4_B_0 c (pt4 t) (fun h => h0 ((hcond4_0 t).mp h)) (fun h => h1 ((hcond4_1 t).mp h)) (iblk4 V c 0 t) (iblk4 V c 1 t) (iblk4 V c 2 t) xs0)

def ptC4 (c : Dev nD) (t : Fin cfg4.N) (h1 : t.val % 4 = 3) (xs0 : Vec F S512x1024 .f32) : Vec F S512x1024 .f32 × Vec F S512x1024 .f32 :=
  (out4_C_3 c (pt4 t) (fun h => by have := (hcond4_0 t).mp h; omega) ((hcond4_1 t).mpr h1) (iblk4 V c 0 t) (iblk4 V c 1 t) (iblk4 V c 2 t) xs0,
   sout4_C_0 c (pt4 t) (fun h => by have := (hcond4_0 t).mp h; omega) ((hcond4_1 t).mpr h1) (iblk4 V c 0 t) (iblk4 V c 1 t) (iblk4 V c 2 t) xs0)

def outsAt4 (c : Dev nD) : (n : ℕ) → n < cfg4.N → Vec F S512x1024 .f32 × Vec F S512x1024 .f32
  | 0, hn => ptA4 V c ⟨0, hn⟩ (Nat.zero_mod _)
  | n + 1, hn =>
    if h0 : (n + 1) % 4 = 0 then ptA4 V c ⟨n + 1, hn⟩ h0
    else if h1 : (n + 1) % 4 = 3 then ptC4 V c ⟨n + 1, hn⟩ h1 (outsAt4 c n (Nat.lt_of_succ_lt hn)).2
    else ptB4 V c ⟨n + 1, hn⟩ h0 h1 (outsAt4 c n (Nat.lt_of_succ_lt hn)).2

theorem outsAt4_A (c : Dev nD) (t : Fin cfg4.N) (h0 : t.val % 4 = 0) : outsAt4 V c t.val t.isLt = ptA4 V c t h0 := by
  obtain ⟨n, hn⟩ := t
  cases n with
  | zero => exact rfl
  | succ n => exact (dif_pos h0).trans rfl

theorem outsAt4_B (c : Dev nD) (t : Fin cfg4.N) (h0 : ¬t.val % 4 = 0) (h1 : ¬t.val % 4 = 3) :
    outsAt4 V c t.val t.isLt = ptB4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt4_C (c : Dev nD) (t : Fin cfg4.N) (h1 : t.val % 4 = 3) :
    outsAt4 V c t.val t.isLt = ptC4 V c t h1 (outsAt4 V c (t.val - 1) (Nat.lt_of_le_of_lt (Nat.sub_le _ _) t.isLt)).2 := by
  obtain ⟨n, hn⟩ := t
  cases n with
  | zero => exact absurd ((Nat.zero_mod 4).symm.trans h1) (by decide)
  | succ n =>
    have h1' : (n + 1) % 4 = 3 := h1
    exact (dif_neg (by omega)).trans ((dif_pos h1).trans rfl)

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

theorem PhiS4_some (c : Dev nD) (n : ℕ) (h : n ≤ cfg4.N) : PhiS4 V c n h ⊢ Pipeline.ΦA spec4 c := by
  cases n with
  | zero => exact .rfl
  | succ n =>
    rw [PhiS4_succ, PhiA4_eq]
    iintro ⟨⟨HS0, HR⟩, Hg⟩
    isplitl [HS0 HR]
    · isplitl [HS0]
      · iexists _; iexact HS0
      iexact HR
    iexact Hg

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 4 = 0
  · have hcA : cond4_0 (pt4 t).i := (hcond4_0 t).mpr h0
    have hcA1 : ¬cond4_1 (pt4 t).i := fun h => by have := (hcond4_1 t).mp h; omega
    rw [Dat.leavesExact_idle (dat4 V c) 3 t (idleAt4_3_A t hcA hcA1) (noFlush4_3_A t hcA hcA1)]
    rw [outsAt4_A V c t h0]
    unfold ptA4 sout4_A_0; (try dsimp only)
    rw [PhiS4_castSucc V c t]
    refine (sep_mono (PhiS4_some V c _ _) .rfl).trans ?_
    rw [PhiA4_eq]
    iintro ⟨⟨⟨HS0, HR⟩, Hg⟩, Ho, ⟨%d0, H0⟩, ⟨%d1, H1⟩, ⟨%d2, H2⟩, ⟨%d3, H3⟩⟩
    iapply ((kernelRun4_A c (pt4 t) hcA hcA1 (iblk4 V c 0 t) (iblk4 V c 1 t) (iblk4 V c 2 t)).2.2 _ Set.univ _)
    iframe H0 H1 H2 H3 HS0
    iintro ⟨H0, H1, H2, H3, ⟨%es0, HS0⟩⟩
    iframe HR Hg
    isplitl [HS0]
    · unfold owns; iexists _; isplitr
      swap; · iexact HS0
      ipureintro; exact View.read_writes_of_cover _ _ _ _ _ (scover4_A_0 c _ _ _ _ _ _)
    iframe Ho H0 H1 H2
    iexists _; iexact H3
  · have hcB : ¬cond4_0 (pt4 t).i := fun h => h0 ((hcond4_0 t).mp h)
    by_cases h1 : t.val % 4 = 3
    · rw [show (dat4 V c).leavesExact 3 t = owns (c : Thread nD τ) (ms4_3 t) fullShare ((dat4 V c).after 3 t) from by
        unfold Dat.leavesExact; rw [liveAt4_3_C t hcB ((hcond4_1 t).mpr h1)], after4_3]
      rw [outsAt4_C V c t h1]
      unfold ptC4 out4_C_3 sout4_C_0; (try dsimp only)
      rw [PhiS4_castSucc V c t, PhiS4_pos V c _ _ (by omega)]
      iintro ⟨⟨⟨HS0, HR⟩, Hg⟩, Ho, ⟨%d0, H0⟩, ⟨%d1, H1⟩, ⟨%d2, H2⟩, ⟨%d3, H3⟩⟩
      iapply ((kernelRun4_C c (pt4 t) hcB ((hcond4_1 t).mpr h1) (iblk4 V c 0 t) (iblk4 V c 1 t) (iblk4 V c 2 t) _).2.2 Set.univ _)
      iframe H0 H1 H2
      isplitl [H3]; · iexists _; iexact H3
      iframe HS0
      iintro ⟨H0, H1, H2, ⟨%e3, H3⟩, ⟨%es0, HS0⟩⟩
      iframe HR Hg
      isplitl [HS0]
      · unfold owns; iexists _; isplitr
        swap; · iexact HS0
        ipureintro; exact View.read_writes_of_cover _ _ _ _ _ (scover4_C_0 c _ _ _ _ _ _ _)
      iframe Ho H0 H1 H2
      unfold owns; iexists _; isplitr
      swap; · iexact H3
      ipureintro; exact View.read_writes_of_cover _ _ _ _ _ (cover4_C_3 c _ _ _ _ _ _ _)
    · rw [Dat.leavesExact_idle (dat4 V c) 3 t (idleAt4_3_B t hcB (fun h => h1 ((hcond4_1 t).mp h))) (noFlush4_3_B t hcB (fun h => h1 ((hcond4_1 t).mp h)))]
      rw [outsAt4_B V c t h0 h1]
      unfold ptB4 sout4_B_0; (try dsimp only)
      rw [PhiS4_castSucc V c t, PhiS4_pos V c _ _ (by omega)]
      iintro ⟨⟨⟨HS0, HR⟩, Hg⟩, Ho, ⟨%d0, H0⟩, ⟨%d1, H1⟩, ⟨%d2, H2⟩, ⟨%d3, H3⟩⟩
      iapply ((kernelRun4_B c (pt4 t) hcB (fun h => h1 ((hcond4_1 t).mp h)) (iblk4 V c 0 t) (iblk4 V c 1 t) (iblk4 V c 2 t) _).2.2 _ Set.univ _)
      iframe H0 H1 H2 H3 HS0
      iintro ⟨H0, H1, H2, H3, ⟨%es0, HS0⟩⟩
      iframe HR Hg
      isplitl [HS0]
      · unfold owns; iexists _; isplitr
        swap; · iexact HS0
        ipureintro; exact View.read_writes_of_cover _ _ _ _ _ (scover4_B_0 c _ _ _ _ _ _ _)
      iframe Ho H0 H1 H2
      iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c :=
  PhiS4_some V c (Fin.last cfg4.N).val (Nat.le_of_lt_succ (Fin.last cfg4.N).isLt)

end Cert.KernelIdeal.Hd

end
-- ==== Proof.KI.Run.lean ====
import proofs.«141866_j33835752358180_1_alg».proof.Proof.KI.Lin0
import proofs.«141866_j33835752358180_1_alg».proof.Proof.KI.Lin1
import proofs.«141866_j33835752358180_1_alg».proof.Proof.KI.Lin2
import proofs.«141866_j33835752358180_1_alg».proof.Proof.KI.Sc
import proofs.«141866_j33835752358180_1_alg».proof.Proof.KI.Out

set_option maxRecDepth 16384

noncomputable section

namespace Cert.KernelIdeal.Hd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
abbrev V7 : (c : Dev nD) → (b : Ref sig .tc) → Buf (Elt F) ((c : Thread nD τ).loc b) := fun c b => W7 m ρ c b

def W8 (c : Dev nD) : Valuation τ sig (Elt F) :=
  Pipeline.withArrays spec4 c (W7 m ρ c) fun w => (dat4 (V7 m ρ) c).arrAt w cfg4.N
abbrev V8 : (c : Dev nD) → (b : Ref sig .tc) → Buf (Elt F) ((c : Thread nD τ).loc b) := fun c b => W8 m ρ c b

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

theorem W7_arr (c : Dev nD) (w : Fin cfg3.W) :
    W7 m ρ c (Proc.devRef .tc (Pipeline.arrRef spec3 w)) = (dat3 (V6 m ρ) c).arrAt w cfg3.N :=
  Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) :=
  Pipeline.withArrays_of_ne spec3 c _ _ b hb

theorem W8_arr (c : Dev nD) (w : Fin cfg4.W) :
    W8 m ρ c (Proc.devRef .tc (Pipeline.arrRef spec4 w)) = (dat4 (V7 m ρ) c).arrAt w cfg4.N :=
  Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) :=
  Pipeline.withArrays_of_ne spec4 c _ _ b hb

theorem hostOps0_fresh : (hostOps0 : List (HloOp τ sig (Elt F))).Forall fun op => op.fresh = ∅ := by
  simp only [List.Forall]; repeat' constructor
theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.reshape_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
theorem hostOps2_writes : (hostOps2 : List (HloOp τ sig (Elt F))).Forall fun op => op.writes ⊆ (([main_v4] : List (Ref sig .tc)).map (Proc.devRef (τ := τ) .tc)).toFinset := by
  simp only [List.Forall]; exact (by simp only [StableHlo.reshape_writes, Finset.singleton_subset_iff, List.mem_toFinset]; exact List.mem_map_of_mem (by decide))

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

abbrev Wout (p : Fin 5) (Win : Dev nD → Valuation τ sig (Elt F)) (c : Dev nD) : Valuation τ sig (Elt F) :=
  Pipeline.withArrays (Pipeline.pin (pcfgs (F := F)) adm p).spec c (Win c) fun w => (pdats m ρ p c).arrAt w (Pipeline.pin (pcfgs (F := F)) adm p).N

set_option backward.isDefEq.respectTransparency.types false in
-- The segment record of region `p`, proved once for all five: entered with every unscoped buffer at `Win`, left with them at `Wout`.
def regA (p : Fin 5) (la : Pipeline.LaunchFacts (nD := nD) (τ := τ) cfgs p) (Win : Dev nD → Valuation τ sig (Elt F))
    (hbody : ∀ c, Pipeline.BodyObligationLoose (pdats m ρ p c) defs₀ 𝒱₀ () Set.univ)
    (howed : ∀ c t, (pdats m ρ p c).owed t = 0) (hq : ∀ c w, (pdats m ρ p c).q w = fullShare)
    (hrec : ∀ c, (pdats m ρ p c).recorded 0 = Set.univ)
    (hA : ∀ c w, (pdats m ρ p c).A w = Win c (Proc.devRef .tc (Pipeline.arrRef (Pipeline.pin (pcfgs (F := F)) adm p).spec w)))
    (hΦ0 : ∀ c, (Pipeline.ΦA (Pipeline.pin (pcfgs (F := F)) adm p).spec c : sProp 𝕄) ⊢ (pdats m ρ p c).Φ 0)
    (hΦN : ∀ c, (pdats m ρ p c).Φ (Fin.last _) ⊢ (Pipeline.ΦA (Pipeline.pin (pcfgs (F := F)) adm p).spec c : sProp 𝕄)) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout m ρ p Win c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    rw [Pipeline.ownSems0_none]
    have hsplit := Pipeline.arrays_of_unscopedBufs (p := p) (pcfgs (F := F)) adm (pdats m ρ) la.win la.arr_whole c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl ((hrec c).symm ▸ Set.mem_univ x)
      iexact HO
    isplitl [Hp]; · iexact Hp
    iexact Hrest
  hin c := by
    refine .trans ?_ (hΦ0 c); unfold Pipeline.ΦA
    iintro ⟨Hp, -, Hr⟩
    isplitl [Hr]; · iexact Hr
    iexact Hp
  hout c := by
    refine (hΦN c).trans ?_; rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (hq c))
      (fun b => Win c b) (fun b => Wout m ρ p Win c b) ((pdats m ρ p c).arrAt · (Pipeline.pin (pcfgs (F := F)) adm p).N)
      (fun w => (Pipeline.withArrays_arr (Pipeline.pin (pcfgs (F := F)) adm p).spec la.win.arr_inj c (Win c) (fun w => (pdats m ρ p c).arrAt w (Pipeline.pin (pcfgs (F := F)) adm p).N) w).symm)
      (fun b hb => Pipeline.withArrays_of_ne (Pipeline.pin (pcfgs (F := F)) adm p).spec c (Win c) _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

abbrev reg0 := regA m ρ 0 launch0 (W1 m ρ) (fun c => (body_obligation0 (V1 m ρ) c).loose) (fun _ _ => rfl) (fun _ _ => rfl) (fun _ => rfl) (fun _ _ => rfl)
  (fun _ => .rfl) (fun _ => .rfl)
abbrev reg1 := regA m ρ 1 launch1 (W3 m ρ) (fun c => (body_obligation1 (V3 m ρ) c).loose) (fun _ _ => rfl) (fun _ _ => rfl) (fun _ => rfl) (fun _ _ => rfl)
  (fun _ => .rfl) (fun _ => .rfl)
abbrev reg2 := regA m ρ 2 launch2 (W5 m ρ) (fun c => (body_obligation2 (V5 m ρ) c).loose) (fun _ _ => rfl) (fun _ _ => rfl) (fun _ => rfl) (fun _ _ => rfl)
  (fun _ => .rfl) (fun _ => .rfl)
abbrev reg3 := regA m ρ 3 launch3 (W6 m ρ) (fun c => (body_obligation3 (V6 m ρ) c).loose) (fun _ _ => rfl) (fun _ _ => rfl) (fun _ => rfl) (fun _ _ => rfl)
  (fun _ => .rfl) (fun _ => .rfl)
abbrev reg4 := regA m ρ 4 launch4 (W7 m ρ) (fun c => (body_obligation4 (V7 m ρ) c).loose) (fun _ _ => rfl) (fun _ _ => rfl) (fun _ => rfl) (fun _ _ => rfl)
  (hin4 (V7 m ρ)) (hout4 (V7 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .region (reg4 m ρ) ]

theorem main_run (c : Dev nD) : main (F := F) c = Pipeline.Seg.run (segs m ρ) := (main_chain c).trans (by chain_rfl)

-- @main is a chain of three host stretches and five regions; each hands the next every unscoped buffer at a named valuation.
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hd

end
-- ==== Proof.KI.Chain.lean ====
import proofs.«141866_j33835752358180_1_alg».proof.Proof.KI.Run
import Idealize.ShloMosaic.Lib.StableHlo.Run

set_option maxRecDepth 16384

noncomputable section

namespace Cert.KernelIdeal.Hd

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

theorem isIn0 : ∀ w : Fin cfg0.W, Pipeline.arrRef spec0 w ≠ main_v1 → (cfg0.win w).isOut = false := by decide
theorem isIn1 : ∀ w : Fin cfg1.W, Pipeline.arrRef spec1 w ≠ main_v3 → (cfg1.win w).isOut = false := by decide
theorem isIn2 : ∀ w : Fin cfg2.W, Pipeline.arrRef spec2 w ≠ main_v5 → (cfg2.win w).isOut = false := by decide
theorem isIn3 : ∀ w : Fin cfg3.W, Pipeline.arrRef spec3 w ≠ main_v6_0 → Pipeline.arrRef spec3 w ≠ main_v6_1 → (cfg3.win w).isOut = false := by decide
theorem isIn4 : ∀ w : Fin cfg4.W, Pipeline.arrRef spec4 w ≠ main_v7 → (cfg4.win w).isOut = false := by decide

theorem W1_keep (c : Dev nD) (b : Ref sig .tc) (h : b ≠ main_v0) : W1 m ρ c (Proc.devRef .tc b) = W0 m ρ c (Proc.devRef .tc b) :=
  StableHlo.after_of_writes_sub hostOps0 _ hostOps0_writes (fun hm => h (List.mem_singleton.mp hm))
theorem W3_keep (c : Dev nD) (b : Ref sig .tc) (h : b ≠ main_v2) : W3 m ρ c (Proc.devRef .tc b) = W2 m ρ c (Proc.devRef .tc b) :=
  StableHlo.after_of_writes_sub hostOps1 _ hostOps1_writes (fun hm => h (List.mem_singleton.mp hm))
theorem W5_keep (c : Dev nD) (b : Ref sig .tc) (h : b ≠ main_v4) : W5 m ρ c (Proc.devRef .tc b) = W4 m ρ c (Proc.devRef .tc b) :=
  StableHlo.after_of_writes_sub hostOps2 _ hostOps2_writes (fun hm => h (List.mem_singleton.mp hm))

theorem W2_keep (c : Dev nD) (b : Ref sig .tc) (h : b ≠ main_v1) : W2 m ρ c (Proc.devRef .tc b) = W1 m ρ c (Proc.devRef .tc b) := by
  by_cases hw : ∃ w, Pipeline.arrRef spec0 w = b
  · obtain ⟨w, rfl⟩ := hw
    rw [W2_arr]
    exact ((dat0 (V1 m ρ) c).arrAt_in w (isIn0 w h) _).trans (A_eq0 (V1 m ρ) c w)
  · exact W2_of_ne m ρ c b fun w e => hw ⟨w, e⟩
theorem W4_keep (c : Dev nD) (b : Ref sig .tc) (h : b ≠ main_v3) : W4 m ρ c (Proc.devRef .tc b) = W3 m ρ c (Proc.devRef .tc b) := by
  by_cases hw : ∃ w, Pipeline.arrRef spec1 w = b
  · obtain ⟨w, rfl⟩ := hw
    rw [W4_arr]
    exact ((dat1 (V3 m ρ) c).arrAt_in w (isIn1 w h) _).trans (A_eq1 (V3 m ρ) c w)
  · exact W4_of_ne m ρ c b fun w e => hw ⟨w, e⟩
theorem W6_keep (c : Dev nD) (b : Ref sig .tc) (h : b ≠ main_v5) : W6 m ρ c (Proc.devRef .tc b) = W5 m ρ c (Proc.devRef .tc b) := by
  by_cases hw : ∃ w, Pipeline.arrRef spec2 w = b
  · obtain ⟨w, rfl⟩ := hw
    rw [W6_arr]
    exact ((dat2 (V5 m ρ) c).arrAt_in w (isIn2 w h) _).trans (A_eq2 (V5 m ρ) c w)
  · exact W6_of_ne m ρ c b fun w e => hw ⟨w, e⟩
theorem W7_keep (c : Dev nD) (b : Ref sig .tc) (h : b ≠ main_v6_0) (h' : b ≠ main_v6_1) : W7 m ρ c (Proc.devRef .tc b) = W6 m ρ c (Proc.devRef .tc b) := by
  by_cases hw : ∃ w, Pipeline.arrRef spec3 w = b
  · obtain ⟨w, rfl⟩ := hw
    rw [W7_arr]
    exact ((dat3 (V6 m ρ) c).arrAt_in w (isIn3 w h h') _).trans (A_eq3 (V6 m ρ) c w)
  · exact W7_of_ne m ρ c b fun w e => hw ⟨w, e⟩
theorem W8_keep (c : Dev nD) (b : Ref sig .tc) (h : b ≠ main_v7) : W8 m ρ c (Proc.devRef .tc b) = W7 m ρ c (Proc.devRef .tc b) := by
  by_cases hw : ∃ w, Pipeline.arrRef spec4 w = b
  · obtain ⟨w, rfl⟩ := hw
    rw [W8_arr]
    exact ((dat4 (V7 m ρ) c).arrAt_in w (isIn4 w h) _).trans (A_eq4 (V7 m ρ) c w)
  · exact W8_of_ne m ρ c b fun w e => hw ⟨w, e⟩

theorem W8_arg (c : Dev nD) (b : Ref sig .tc) (h0 : b ≠ main_v0) (h1 : b ≠ main_v1) (h2 : b ≠ main_v2) (h3 : b ≠ main_v3)
    (h4 : b ≠ main_v4) (h5 : b ≠ main_v5) (h60 : b ≠ main_v6_0) (h61 : b ≠ main_v6_1) (h7 : b ≠ main_v7) :
    W8 m ρ c (Proc.devRef .tc b) = m ((c : Thread nD τ).loc b) :=
  (W8_keep m ρ c b h7).trans <| (W7_keep m ρ c b h60 h61).trans <| (W6_keep m ρ c b h5).trans <| (W5_keep m ρ c b h4).trans <|
    (W4_keep m ρ c b h3).trans <| (W3_keep m ρ c b h2).trans <| (W2_keep m ρ c b h1).trans <| (W1_keep m ρ c b h0).trans rfl

theorem V1_arg (c : Dev nD) (b : Ref sig .tc) (h0 : b ≠ main_v0) : V1 m ρ c b = m ((c : Thread nD τ).loc b) :=
  (W1_keep m ρ c b h0).trans rfl
theorem V3_arg (c : Dev nD) (b : Ref sig .tc) (h0 : b ≠ main_v0) (h1 : b ≠ main_v1) (h2 : b ≠ main_v2) : V3 m ρ c b = m ((c : Thread nD τ).loc b) :=
  (W3_keep m ρ c b h2).trans <| (W2_keep m ρ c b h1).trans <| (W1_keep m ρ c b h0).trans rfl
theorem V5_arg (c : Dev nD) (b : Ref sig .tc) (h0 : b ≠ main_v0) (h1 : b ≠ main_v1) (h2 : b ≠ main_v2) (h3 : b ≠ main_v3) (h4 : b ≠ main_v4) :
    V5 m ρ c b = m ((c : Thread nD τ).loc b) :=
  (W5_keep m ρ c b h4).trans <| (W4_keep m ρ c b h3).trans <| (W3_keep m ρ c b h2).trans <| (W2_keep m ρ c b h1).trans <| (W1_keep m ρ c b h0).trans rfl

theorem V1_v0 (c : Dev nD) : V1 m ρ c main_v0 = shapeCast S1x1024 (m ((c : Thread nD τ).loc main_arg4)) shapeCasts_S1024_S1x1024 := by
  show StableHlo.after hostOps0 _ (Proc.devRef .tc main_v0) = _
  after_results; rfl
theorem V3_v2 (c : Dev nD) : V3 m ρ c main_v2 = shapeCast S1x1024 (V2 m ρ c main_arg6) shapeCasts_S1024_S1x1024 := by
  show StableHlo.after hostOps1 _ (Proc.devRef .tc main_v2) = _
  after_results; rfl
theorem V5_v4 (c : Dev nD) : V5 m ρ c main_v4 = shapeCast S1x1024 (V4 m ρ c main_arg8) shapeCasts_S1024_S1x1024 := by
  show StableHlo.after hostOps2 _ (Proc.devRef .tc main_v4) = _
  after_results; rfl
theorem V2_arg6 (c : Dev nD) : V2 m ρ c main_arg6 = m ((c : Thread nD τ).loc main_arg6) :=
  (W2_keep m ρ c main_arg6 (by decide)).trans <| (W1_keep m ρ c main_arg6 (by decide)).trans rfl
theorem V4_arg8 (c : Dev nD) : V4 m ρ c main_arg8 = m ((c : Thread nD τ).loc main_arg8) :=
  (W4_keep m ρ c main_arg8 (by decide)).trans <| (W3_keep m ρ c main_arg8 (by decide)).trans <| (W2_keep m ρ c main_arg8 (by decide)).trans <|
    (W1_keep m ρ c main_arg8 (by decide)).trans rfl

theorem V6_v1 (c : Dev nD) : V6 m ρ c main_v1 = (dat0 (V1 m ρ) c).arrAt 3 cfg0.N :=
  (W6_keep m ρ c main_v1 (by decide)).trans <| (W5_keep m ρ c main_v1 (by decide)).trans <| (W4_keep m ρ c main_v1 (by decide)).trans <|
    (W3_keep m ρ c main_v1 (by decide)).trans <| W2_arr m ρ c 3
theorem V6_v3 (c : Dev nD) : V6 m ρ c main_v3 = (dat1 (V3 m ρ) c).arrAt 3 cfg1.N :=
  (W6_keep m ρ c main_v3 (by decide)).trans <| (W5_keep m ρ c main_v3 (by decide)).trans <| W4_arr m ρ c 3

theorem V7_v6_0 (c : Dev nD) : V7 m ρ c main_v6_0 = (dat3 (V6 m ρ) c).arrAt 2 cfg3.N := W7_arr m ρ c 2
theorem V7_v6_1 (c : Dev nD) : V7 m ρ c main_v6_1 = (dat3 (V6 m ρ) c).arrAt 3 cfg3.N := W7_arr m ρ c 3
theorem V7_v5 (c : Dev nD) : V7 m ρ c main_v5 = (dat2 (V5 m ρ) c).arrAt 3 cfg2.N :=
  (W7_keep m ρ c main_v5 (by decide) (by decide)).trans <| W6_arr m ρ c 3

theorem W8_v7 (c : Dev nD) : W8 m ρ c (Proc.devRef .tc main_v7) = (dat4 (V7 m ρ) c).arrAt 3 cfg4.N := W8_arr m ρ c 3

theorem arg_end {mem : (ℓ : Loc nD τ sig) → Buf (Elt F) ℓ} (c : Dev nD)
    (h : ∀ b ∈ Pipeline.ucRefs τ sig, mem (((c : Thread nD τ)).1, b) = W8 m ρ c b) (b : Ref sig .tc)
    (hu : ¬ (Proc.devRef .tc b : DevRef τ sig).isScoped := by decide) (h0 : b ≠ main_v0 := by decide) (h1 : b ≠ main_v1 := by decide)
    (h2 : b ≠ main_v2 := by decide) (h3 : b ≠ main_v3 := by decide) (h4 : b ≠ main_v4 := by decide) (h5 : b ≠ main_v5 := by decide)
    (h60 : b ≠ main_v6_0 := by decide) (h61 : b ≠ main_v6_1 := by decide) (h7 : b ≠ main_v7 := by decide) :
    mem ((c.tc : Thread nD τ).loc b) = m ((c.tc : Thread nD τ).loc b) :=
  (h _ (mem_uc b hu)).trans (W8_arg m ρ c b h0 h1 h2 h3 h4 h5 h60 h61 h7)

-- No item of @main writes an argument array, so each ends as launched.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨arg_end m ρ c (h c) main_arg0,
     arg_end m ρ c (h c) main_arg1,
     arg_end m ρ c (h c) main_arg2,
     arg_end m ρ c (h c) main_arg3,
     arg_end m ρ c (h c) main_arg4,
     arg_end m ρ c (h c) main_arg5,
     arg_end m ρ c (h c) main_arg6,
     arg_end m ρ c (h c) main_arg7,
     arg_end m ρ c (h c) main_arg8⟩)
    (run_all m ρ)

end Cert.KernelIdeal.Hd

end
-- ==== Proof.Val.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

abbrev SX : Shape := ⟨2, ![4096, 1024]⟩

abbrev SW : Shape := ⟨2, ![1024, 1024]⟩

abbrev SB : Shape := ⟨2, ![1, 1024]⟩

abbrev SV : Shape := ⟨1, ![1024]⟩

abbrev SE : Shape := ⟨2, ![4096, 4096]⟩

abbrev SD : Shape := ⟨2, ![4096, 1]⟩

def row (b : SV.Idx → EReal) : SB.Idx → EReal := fun j => b (ix1 (j 1))

def lin (x : SX.Idx → EReal) (w : SW.Idx → EReal) (b : SB.Idx → EReal) : SX.Idx → EReal :=
  fun i => (∑ k : Fin 1024, x (ix2 (i 0) k) * w (ix2 k (i 1))) + b (ix2 0 (i 1))

def scale : EReal := Ideal.ofBits .f32 0x3A800000#32

def escore (q k : SX.Idx → EReal) : SE.Idx → EReal :=
  fun i => Ideal.exp ((∑ d : Fin 1024, q (ix2 (i 0) d) * k (ix2 (i 1) d)) * scale)

def rowsum (q k : SX.Idx → EReal) : SD.Idx → EReal :=
  fun i => ∑ j : Fin 4096, escore q k (ix2 (i 0) j)

def outp (e : SE.Idx → EReal) (v : SX.Idx → EReal) (r : SD.Idx → EReal) : SX.Idx → EReal :=
  fun i => ∑ j : Fin 4096, e (ix2 (i 0) j) * Ideal.div (v (ix2 j (i 1))) (r (ix2 j 0))

-- The kernel's result: with Q, K, V the three dense layers, e = exp (Q·Kᵀ·2⁻¹⁰), r[j] = Σ_k e[j, k], out = e·(V / r).
def head (x0 x1 x2 : SX.Idx → EReal) (w3 : SW.Idx → EReal) (b4 : SV.Idx → EReal) (w5 : SW.Idx → EReal) (b6 : SV.Idx → EReal)
    (w7 : SW.Idx → EReal) (b8 : SV.Idx → EReal) : SX.Idx → EReal :=
  outp (escore (lin x0 w3 (row b4)) (lin x1 w5 (row b6))) (lin x2 w7 (row b8)) (rowsum (lin x0 w3 (row b4)) (lin x1 w5 (row b6)))

end Cert.Spec

end
-- ==== Proof.Val.Lin0.lean ====
import proofs.«141866_j33835752358180_1_alg».proof.Proof.KI.Lin0
import proofs.«141866_j33835752358180_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ValLin0

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hd
open scoped BigOperators

theorem mm_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

theorem mm_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

theorem mm_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

theorem mm_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem matmul_at (a b : FVec Ideal S1024x1024 .bf16) (p q : Fin 1024) :
    matmul dot_S1024x1024_S1024x1024_S1024x1024_1_0_0_1_n_n none a b (constant (F := Ideal) S1024x1024 .f32 0x00000000#32) (ix2 p q)
      = ∑ k : Fin 1024, a (ix2 p k) * b (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

theorem bias_at (x2 : Vec Ideal S1x1024 .f32) (p q : Fin 1024) :
    broadcastTo S1024x1024 (shapeCast S1x1024 x2 shapeCasts_S1x1024_S1x1024) broadcasts_S1x1024_S1024x1024 (ix2 p q) = x2 (ix2 0 q) := by
  rw [shapeCast_self]
  exact broadcastTo_apply x2 broadcasts_S1x1024_S1024x1024 (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

theorem pay_at (x0 x1 : Vec Ideal S1024x1024 .f32) (x2 : Vec Ideal S1x1024 .f32) (p q : Fin 1024) :
    k0_pay1 x0 x1 x2 (ix2 p q) = (∑ k : Fin 1024, x0 (ix2 p k) * x1 (ix2 k q)) + x2 (ix2 0 q) := by
  unfold k0_pay1
  rw [addf_apply, matmul_at, bias_at]
  rfl

variable (V : (c : Dev nD) → (b : Ref sig .tc) → Buf (Elt Ideal) ((c : Thread nD τ).loc b))

theorem origin_eq : (![0, 0] : Fin 2 → Nat) = fun _ => 0 := funext fun a => by fin_cases a <;> rfl

theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem xblk_at (c : Dev nD) (t : Fin cfg0.N) (y : S1024x1024.Idx) (i : S4096x1024.Idx)
    (h0 : (i 0).val = 1024 * t.val + (y 0).val) (h1 : (i 1).val = (y 1).val) :
    (iblk0 V c 0 t : Vec Ideal S1024x1024 .f32) y = (V c main_arg0 : S4096x1024.Idx → EReal) i := by
  obtain ⟨e0, e1, -⟩ := block_index t
  unfold iblk0
  rw [View.read_apply]
  show V c main_arg0 _ = V c main_arg0 _
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

theorem wblk_at (c : Dev nD) (t : Fin cfg0.N) (y i : S1024x1024.Idx)
    (h0 : (i 0).val = (y 0).val) (h1 : (i 1).val = (y 1).val) :
    (iblk0 V c 1 t : Vec Ideal S1024x1024 .f32) y = (V c main_arg3 : S1024x1024.Idx → EReal) i := by
  obtain ⟨-, -, e0, e1, -⟩ := block_index t
  unfold iblk0
  rw [View.read_apply]
  show V c main_arg3 _ = V c main_arg3 _
  congr 1
  funext a
  apply Fin.ext
  match a with
  | ⟨0, _⟩ => show win0_1.index t (0 : Fin 2) * 1024 + 1 * (y 0).val = (i 0).val; rw [e0, h0]; omega
  | ⟨1, _⟩ => show win0_1.index t (1 : Fin 2) * 1024 + 1 * (y 1).val = (i 1).val; rw [e1, h1]; omega

theorem bblk_at (c : Dev nD) (t : Fin cfg0.N) (y i : S1x1024.Idx)
    (h0 : (i 0).val = (y 0).val) (h1 : (i 1).val = (y 1).val) :
    (iblk0 V c 2 t : Vec Ideal S1x1024 .f32) y = (V c main_v0 : S1x1024.Idx → EReal) i := by
  obtain ⟨-, -, -, -, e0, e1, -⟩ := block_index t
  unfold iblk0
  rw [View.read_apply]
  show V c main_v0 _ = V c main_v0 _
  congr 1
  funext a
  apply Fin.ext
  match a with
  | ⟨0, _⟩ => show win0_2.index t (0 : Fin 2) * 1 + 1 * (y 0).val = (i 0).val; rw [e0, h0]; omega
  | ⟨1, _⟩ => show win0_2.index t (1 : Fin 2) * 1024 + 1 * (y 1).val = (i 1).val; rw [e1, h1]; omega

theorem oblk_emb (t : Fin cfg0.N) (y : S1024x1024.Idx) (i : S4096x1024.Idx) (hi : i = ((cfg0.win 3).blk t).view.emb y) :
    (i 0).val = 1024 * t.val + (y 0).val ∧ (i 1).val = (y 1).val := by
  subst hi
  obtain ⟨-, -, -, -, -, -, e0, e1⟩ := block_index t
  constructor
  · show win0_3.index t (0 : Fin 2) * 1024 + 1 * (y 0).val = _; rw [e0]; omega
  · show win0_3.index t (1 : Fin 2) * 1024 + 1 * (y 1).val = _; rw [e1]; omega

theorem pay_apply (x0 x1 : Vec Ideal S1024x1024 .f32) (x2 : Vec Ideal S1x1024 .f32) (j : S1024x1024.Idx) :
    k0_pay1 x0 x1 x2 j = (∑ k : Fin 1024, x0 (ix2 (j 0) k) * x1 (ix2 k (j 1))) + x2 (ix2 0 (j 1)) := by
  obtain ⟨p, q, rfl⟩ : ∃ (p : Fin 1024) (q : Fin 1024), j = ix2 p q := ⟨j 0, j 1, eq_ix2 j⟩
  exact pay_at x0 x1 x2 p q

theorem flushed_eq (c : Dev nD) (t : Fin cfg0.N) :
    (dat0 (F := Ideal) V c).flushed 3 t
      = ((cfg0.win 3).blk t).view.read (Elt Ideal) (Cert.Spec.lin (V c main_arg0) (V c main_arg3) (V c main_v0)) := by
  show (cfg0.win 3).cut (grid0.coords t) ((dat0 V c).after 3 t) = _
  rw [after0_3]
  unfold out0_3
  rw [View.canon_unit_zero origin_eq]
  simp only [View.ld_unit_zero (S := S1024x1024) origin_eq, View.ld_unit_zero (S := S1x1024) origin_eq]
  funext j
  obtain ⟨h0, h1⟩ := oblk_emb t j _ rfl
  refine (pay_apply (iblk0 V c 0 t) (iblk0 V c 1 t) (iblk0 V c 2 t) j).trans ?_
  show _ = Cert.Spec.lin (V c main_arg0) (V c main_arg3) (V c main_v0) (((cfg0.win 3).blk t).view.emb j)
  unfold Cert.Spec.lin
  refine congrArg₂ (· + ·) (Finset.sum_congr rfl fun k _ => congrArg₂ (· * ·) ?_ ?_) ?_
  · exact xblk_at V c t _ _ h0 rfl
  · exact wblk_at V c t _ _ rfl h1
  · exact bblk_at V c t _ _ rfl h1

theorem mem_oblk (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

theorem rows_tiled (i : S4096x1024.Idx) : ∃ t : Fin cfg0.N, (cfg0.win 3).flush t = true ∧ i ∈ ((cfg0.win 3).blk t).view.set := by
  have hN : cfg0.N = 4 := N_0
  have hi0 : (i 0).val < 4096 := (i 0).isLt
  have hi1 : (i 1).val < 1024 := (i 1).isLt
  obtain ⟨t, ht⟩ : ∃ t : Fin cfg0.N, t.val = (i 0).val / 1024 := ⟨⟨(i 0).val / 1024, by rw [hN]; omega⟩, rfl⟩
  obtain ⟨-, -, -, -, -, -, e0, e1⟩ := block_index t
  refine ⟨t, flush0_3 t, ?_⟩
  rw [mem_oblk]
  intro a
  match a with
  | ⟨0, _⟩ => show win0_3.index t (0 : Fin 2) * 1024 ≤ (i 0).val ∧ (i 0).val < win0_3.index t (0 : Fin 2) * 1024 + 1024; rw [e0]; omega
  | ⟨1, _⟩ => show win0_3.index t (1 : Fin 2) * 1024 ≤ (i 1).val ∧ (i 1).val < win0_3.index t (1 : Fin 2) * 1024 + 1024; rw [e1]; omega

theorem lin0_value (c : Dev nD) :
    (dat0 (F := Ideal) V c).arrAt 3 cfg0.N = Cert.Spec.lin (V c main_arg0) (V c main_arg3) (V c main_v0) :=
  (dat0 (F := Ideal) V c).arrAt_eq_of_cover 3 (Cert.Spec.lin (V c main_arg0) (V c main_arg3) (V c main_v0))
    (fun t _ => flushed_eq V c t) rows_tiled

end Cert.KernelIdeal.ValLin0

end
-- ==== Proof.Val.Lin1.lean ====
import proofs.«141866_j33835752358180_1_alg».proof.Proof.KI.Lin1
import proofs.«141866_j33835752358180_1_alg».proof.Proof.Val.Lin0

set_option maxRecDepth 16384

noncomputable section

namespace Cert.KernelIdeal.ValLin1

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hd
open scoped BigOperators

variable (V : (c : Dev nD) → (b : Ref sig .tc) → Buf (Elt Ideal) ((c : Thread nD τ).loc b))

theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem xblk_at (c : Dev nD) (t : Fin cfg1.N) (y : S1024x1024.Idx) (i : S4096x1024.Idx)
    (h0 : (i 0).val = 1024 * t.val + (y 0).val) (h1 : (i 1).val = (y 1).val) :
    (iblk1 V c 0 t : Vec Ideal S1024x1024 .f32) y = (V c main_arg1 : S4096x1024.Idx → EReal) i := by
  obtain ⟨e0, e1, -⟩ := block_index t
  unfold iblk1
  rw [View.read_apply]
  show V c main_arg1 _ = V c main_arg1 _
  congr 1
  funext a
  apply Fin.ext
  match a with
  | ⟨0, _⟩ => show win1_0.index t (0 : Fin 2) * 1024 + 1 * (y 0).val = (i 0).val; rw [e0, h0]; omega
  | ⟨1, _⟩ => show win1_0.index t (1 : Fin 2) * 1024 + 1 * (y 1).val = (i 1).val; rw [e1, h1]; omega

theorem wblk_at (c : Dev nD) (t : Fin cfg1.N) (y i : S1024x1024.Idx)
    (h0 : (i 0).val = (y 0).val) (h1 : (i 1).val = (y 1).val) :
    (iblk1 V c 1 t : Vec Ideal S1024x1024 .f32) y = (V c main_arg5 : S1024x1024.Idx → EReal) i := by
  obtain ⟨-, -, e0, e1, -⟩ := block_index t
  unfold iblk1
  rw [View.read_apply]
  show V c main_arg5 _ = V c main_arg5 _
  congr 1
  funext a
  apply Fin.ext
  match a with
  | ⟨0, _⟩ => show win1_1.index t (0 : Fin 2) * 1024 + 1 * (y 0).val = (i 0).val; rw [e0, h0]; omega
  | ⟨1, _⟩ => show win1_1.index t (1 : Fin 2) * 1024 + 1 * (y 1).val = (i 1).val; rw [e1, h1]; omega

theorem bblk_at (c : Dev nD) (t : Fin cfg1.N) (y i : S1x1024.Idx)
    (h0 : (i 0).val = (y 0).val) (h1 : (i 1).val = (y 1).val) :
    (iblk1 V c 2 t : Vec Ideal S1x1024 .f32) y = (V c main_v2 : S1x1024.Idx → EReal) i := by
  obtain ⟨-, -, -, -, e0, e1, -⟩ := block_index t
  unfold iblk1
  rw [View.read_apply]
  show V c main_v2 _ = V c main_v2 _
  congr 1
  funext a
  apply Fin.ext
  match a with
  | ⟨0, _⟩ => show win1_2.index t (0 : Fin 2) * 1 + 1 * (y 0).val = (i 0).val; rw [e0, h0]; omega
  | ⟨1, _⟩ => show win1_2.index t (1 : Fin 2) * 1024 + 1 * (y 1).val = (i 1).val; rw [e1, h1]; omega

theorem oblk_emb (t : Fin cfg1.N) (y : S1024x1024.Idx) (i : S4096x1024.Idx) (hi : i = ((cfg1.win 3).blk t).view.emb y) :
    (i 0).val = 1024 * t.val + (y 0).val ∧ (i 1).val = (y 1).val := by
  subst hi
  obtain ⟨-, -, -, -, -, -, e0, e1⟩ := block_index t
  constructor
  · show win1_3.index t (0 : Fin 2) * 1024 + 1 * (y 0).val = _; rw [e0]; omega
  · show win1_3.index t (1 : Fin 2) * 1024 + 1 * (y 1).val = _; rw [e1]; omega

theorem flushed_eq (c : Dev nD) (t : Fin cfg1.N) :
    (dat1 (F := Ideal) V c).flushed 3 t
      = ((cfg1.win 3).blk t).view.read (Elt Ideal) (Cert.Spec.lin (V c main_arg1) (V c main_arg5) (V c main_v2)) := by
  show (cfg1.win 3).cut (grid1.coords t) ((dat1 V c).after 3 t) = _
  rw [after1_3]
  unfold out0_3
  rw [View.canon_unit_zero ValLin0.origin_eq]
  simp only [View.ld_unit_zero (S := S1024x1024) ValLin0.origin_eq, View.ld_unit_zero (S := S1x1024) ValLin0.origin_eq]
  funext j
  obtain ⟨h0, h1⟩ := oblk_emb t j _ rfl
  refine (ValLin0.pay_apply (iblk1 V c 0 t) (iblk1 V c 1 t) (iblk1 V c 2 t) j).trans ?_
  show _ = Cert.Spec.lin (V c main_arg1) (V c main_arg5) (V c main_v2) (((cfg1.win 3).blk t).view.emb j)
  unfold Cert.Spec.lin
  refine congrArg₂ (· + ·) (Finset.sum_congr rfl fun k _ => congrArg₂ (· * ·) ?_ ?_) ?_
  · exact xblk_at V c t _ _ h0 rfl
  · exact wblk_at V c t _ _ rfl h1
  · exact bblk_at V c t _ _ rfl h1

theorem mem_oblk (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

theorem rows_tiled (i : S4096x1024.Idx) : ∃ t : Fin cfg1.N, (cfg1.win 3).flush t = true ∧ i ∈ ((cfg1.win 3).blk t).view.set := by
  have hN : cfg1.N = 4 := N_1
  have hi0 : (i 0).val < 4096 := (i 0).isLt
  have hi1 : (i 1).val < 1024 := (i 1).isLt
  obtain ⟨t, ht⟩ : ∃ t : Fin cfg1.N, t.val = (i 0).val / 1024 := ⟨⟨(i 0).val / 1024, by rw [hN]; omega⟩, rfl⟩
  obtain ⟨-, -, -, -, -, -, e0, e1⟩ := block_index t
  refine ⟨t, flush1_3 t, ?_⟩
  rw [mem_oblk]
  intro a
  match a with
  | ⟨0, _⟩ => show win1_3.index t (0 : Fin 2) * 1024 ≤ (i 0).val ∧ (i 0).val < win1_3.index t (0 : Fin 2) * 1024 + 1024; rw [e0]; omega
  | ⟨1, _⟩ => show win1_3.index t (1 : Fin 2) * 1024 ≤ (i 1).val ∧ (i 1).val < win1_3.index t (1 : Fin 2) * 1024 + 1024; rw [e1]; omega

theorem lin1_value (c : Dev nD) :
    (dat1 (F := Ideal) V c).arrAt 3 cfg1.N = Cert.Spec.lin (V c main_arg1) (V c main_arg5) (V c main_v2) :=
  (dat1 (F := Ideal) V c).arrAt_eq_of_cover 3 (Cert.Spec.lin (V c main_arg1) (V c main_arg5) (V c main_v2))
    (fun t _ => flushed_eq V c t) rows_tiled

end Cert.KernelIdeal.ValLin1

end
-- ==== Proof.Val.Lin2.lean ====
import proofs.«141866_j33835752358180_1_alg».proof.Proof.KI.Lin2
import proofs.«141866_j33835752358180_1_alg».proof.Proof.Val.Lin0

set_option maxRecDepth 16384

noncomputable section

namespace Cert.KernelIdeal.ValLin2

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hd
open scoped BigOperators

variable (V : (c : Dev nD) → (b : Ref sig .tc) → Buf (Elt Ideal) ((c : Thread nD τ).loc b))

theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem xblk_at (c : Dev nD) (t : Fin cfg2.N) (y : S1024x1024.Idx) (i : S4096x1024.Idx)
    (h0 : (i 0).val = 1024 * t.val + (y 0).val) (h1 : (i 1).val = (y 1).val) :
    (iblk2 V c 0 t : Vec Ideal S1024x1024 .f32) y = (V c main_arg2 : S4096x1024.Idx → EReal) i := by
  obtain ⟨e0, e1, -⟩ := block_index t
  unfold iblk2
  rw [View.read_apply]
  show V c main_arg2 _ = V c main_arg2 _
  congr 1
  funext a
  apply Fin.ext
  match a with
  | ⟨0, _⟩ => show win2_0.index t (0 : Fin 2) * 1024 + 1 * (y 0).val = (i 0).val; rw [e0, h0]; omega
  | ⟨1, _⟩ => show win2_0.index t (1 : Fin 2) * 1024 + 1 * (y 1).val = (i 1).val; rw [e1, h1]; omega

theorem wblk_at (c : Dev nD) (t : Fin cfg2.N) (y i : S1024x1024.Idx)
    (h0 : (i 0).val = (y 0).val) (h1 : (i 1).val = (y 1).val) :
    (iblk2 V c 1 t : Vec Ideal S1024x1024 .f32) y = (V c main_arg7 : S1024x1024.Idx → EReal) i := by
  obtain ⟨-, -, e0, e1, -⟩ := block_index t
  unfold iblk2
  rw [View.read_apply]
  show V c main_arg7 _ = V c main_arg7 _
  congr 1
  funext a
  apply Fin.ext
  match a with
  | ⟨0, _⟩ => show win2_1.index t (0 : Fin 2) * 1024 + 1 * (y 0).val = (i 0).val; rw [e0, h0]; omega
  | ⟨1, _⟩ => show win2_1.index t (1 : Fin 2) * 1024 + 1 * (y 1).val = (i 1).val; rw [e1, h1]; omega

theorem bblk_at (c : Dev nD) (t : Fin cfg2.N) (y i : S1x1024.Idx)
    (h0 : (i 0).val = (y 0).val) (h1 : (i 1).val = (y 1).val) :
    (iblk2 V c 2 t : Vec Ideal S1x1024 .f32) y = (V c main_v4 : S1x1024.Idx → EReal) i := by
  obtain ⟨-, -, -, -, e0, e1, -⟩ := block_index t
  unfold iblk2
  rw [View.read_apply]
  show V c main_v4 _ = V c main_v4 _
  congr 1
  funext a
  apply Fin.ext
  match a with
  | ⟨0, _⟩ => show win2_2.index t (0 : Fin 2) * 1 + 1 * (y 0).val = (i 0).val; rw [e0, h0]; omega
  | ⟨1, _⟩ => show win2_2.index t (1 : Fin 2) * 1024 + 1 * (y 1).val = (i 1).val; rw [e1, h1]; omega

theorem oblk_emb (t : Fin cfg2.N) (y : S1024x1024.Idx) (i : S4096x1024.Idx) (hi : i = ((cfg2.win 3).blk t).view.emb y) :
    (i 0).val = 1024 * t.val + (y 0).val ∧ (i 1).val = (y 1).val := by
  subst hi
  obtain ⟨-, -, -, -, -, -, e0, e1⟩ := block_index t
  constructor
  · show win2_3.index t (0 : Fin 2) * 1024 + 1 * (y 0).val = _; rw [e0]; omega
  · show win2_3.index t (1 : Fin 2) * 1024 + 1 * (y 1).val = _; rw [e1]; omega

theorem flushed_eq (c : Dev nD) (t : Fin cfg2.N) :
    (dat2 (F := Ideal) V c).flushed 3 t
      = ((cfg2.win 3).blk t).view.read (Elt Ideal) (Cert.Spec.lin (V c main_arg2) (V c main_arg7) (V c main_v4)) := by
  show (cfg2.win 3).cut (grid2.coords t) ((dat2 V c).after 3 t) = _
  rw [after2_3]
  unfold out0_3
  rw [View.canon_unit_zero ValLin0.origin_eq]
  simp only [View.ld_unit_zero (S := S1024x1024) ValLin0.origin_eq, View.ld_unit_zero (S := S1x1024) ValLin0.origin_eq]
  funext j
  obtain ⟨h0, h1⟩ := oblk_emb t j _ rfl
  refine (ValLin0.pay_apply (iblk2 V c 0 t) (iblk2 V c 1 t) (iblk2 V c 2 t) j).trans ?_
  show _ = Cert.Spec.lin (V c main_arg2) (V c main_arg7) (V c main_v4) (((cfg2.win 3).blk t).view.emb j)
  unfold Cert.Spec.lin
  refine congrArg₂ (· + ·) (Finset.sum_congr rfl fun k _ => congrArg₂ (· * ·) ?_ ?_) ?_
  · exact xblk_at V c t _ _ h0 rfl
  · exact wblk_at V c t _ _ rfl h1
  · exact bblk_at V c t _ _ rfl h1

theorem mem_oblk (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v5).slice (win2_3.rect t)).set ↔ _
  rw [View.set_slice_whole, Rect.mem_set_unit]
  exact Iff.rfl

theorem rows_tiled (i : S4096x1024.Idx) : ∃ t : Fin cfg2.N, (cfg2.win 3).flush t = true ∧ i ∈ ((cfg2.win 3).blk t).view.set := by
  have hN : cfg2.N = 4 := N_2
  have hi0 : (i 0).val < 4096 := (i 0).isLt
  have hi1 : (i 1).val < 1024 := (i 1).isLt
  obtain ⟨t, ht⟩ : ∃ t : Fin cfg2.N, t.val = (i 0).val / 1024 := ⟨⟨(i 0).val / 1024, by rw [hN]; omega⟩, rfl⟩
  obtain ⟨-, -, -, -, -, -, e0, e1⟩ := block_index t
  refine ⟨t, flush2_3 t, ?_⟩
  rw [mem_oblk]
  intro a
  match a with
  | ⟨0, _⟩ => show win2_3.index t (0 : Fin 2) * 1024 ≤ (i 0).val ∧ (i 0).val < win2_3.index t (0 : Fin 2) * 1024 + 1024; rw [e0]; omega
  | ⟨1, _⟩ => show win2_3.index t (1 : Fin 2) * 1024 ≤ (i 1).val ∧ (i 1).val < win2_3.index t (1 : Fin 2) * 1024 + 1024; rw [e1]; omega

theorem lin2_value (c : Dev nD) :
    (dat2 (F := Ideal) V c).arrAt 3 cfg2.N = Cert.Spec.lin (V c main_arg2) (V c main_arg7) (V c main_v4) :=
  (dat2 (F := Ideal) V c).arrAt_eq_of_cover 3 (Cert.Spec.lin (V c main_arg2) (V c main_arg7) (V c main_v4))
    (fun t _ => flushed_eq V c t) rows_tiled

end Cert.KernelIdeal.ValLin2

end
-- ==== Proof.Val.ScOut.lean ====
import proofs.«141866_j33835752358180_1_alg».proof.Proof.KI.Sc
import proofs.«141866_j33835752358180_1_alg».proof.Proof.Val.Spec

import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.ValSc

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.Hd
open scoped BigOperators

variable {F : FTy → Type} [FloatOps F]

theorem origin2 : (![0, 0] : Fin 2 → Nat) = fun _ => 0 := funext fun a => by fin_cases a <;> rfl

variable (c : Dev nD) (P : Pt3)

theorem escoreBuf_reset (hc : cond3_0 P.i) (x0 : Vec F S512x1024 .f32) (x1 : Vec F S1024x1024 .f32) :
    out3_A_2 c P hc x0 x1 = k3_pay2 x0 x1 := by
  unfold out3_A_2
  rw [View.read_writes_eq_canon _ _ _ (cover3_A_2 c P hc x0 x1)]
  unfold kernelRun3_A
  dsimp only
  rw [View.canon_unit_zero origin2]
  simp only [View.readAt_eq_ld, P.h2.read_unread, P.h3.read_unread, View.ld_unit_zero (S := S512x1024) origin2,
    View.ld_unit_zero (S := S1024x1024) origin2]

theorem rowsumBuf_reset (hc : cond3_0 P.i) (x0 : Vec F S512x1024 .f32) (x1 : Vec F S1024x1024 .f32) :
    out3_A_3 c P hc x0 x1 = k3_pay4 x0 x1 (k3_pay3 (F := F)) := by
  unfold out3_A_3
  rw [View.read_writes_eq_canon _ _ _ (cover3_A_3 c P hc x0 x1)]
  unfold kernelRun3_A
  dsimp only
  sl_unfold_words
  rw [View.canon_cons_unit_zero (S := S512x1) origin2]
  simp only [View.readAt_eq_ld, P.h2.read_unread, P.h3.read_unread, View.ld_unit_zero (S := S512x1024) origin2,
    View.ld_unit_zero (S := S1024x1024) origin2, View.readCov_unit_zero (S := S512x1) _ origin2]

theorem escoreBuf_step (hc : ¬cond3_0 P.i) (x0 : Vec F S512x1024 .f32) (x1 : Vec F S1024x1024 .f32) (xo : Vec F S512x1 .f32) :
    out3_B_2 c P hc x0 x1 xo = k3_pay2 x0 x1 := by
  unfold out3_B_2
  rw [View.read_writes_eq_canon _ _ _ (cover3_B_2 c P hc x0 x1 xo)]
  unfold kernelRun3_B
  dsimp only
  rw [View.canon_unit_zero origin2]
  simp only [View.readAt_eq_ld, P.h2.read_unread, P.h3.read_unread, View.ld_unit_zero (S := S512x1024) origin2,
    View.ld_unit_zero (S := S1024x1024) origin2]

theorem rowsumBuf_step (hc : ¬cond3_0 P.i) (x0 : Vec F S512x1024 .f32) (x1 : Vec F S1024x1024 .f32) (xo : Vec F S512x1 .f32) :
    out3_B_3 c P hc x0 x1 xo = k3_pay4 x0 x1 xo := by
  unfold out3_B_3
  rw [View.read_writes_eq_canon _ _ _ (cover3_B_3 c P hc x0 x1 xo)]
  unfold kernelRun3_B
  dsimp only
  rw [View.canon_unit_zero origin2]
  simp only [View.readAt_eq_ld, P.h2.read_unread, P.h3.read_unread, P.h5.read_unread, View.ld_unit_zero (S := S512x1024) origin2,
    View.ld_unit_zero (S := S1024x1024) origin2, View.ld_unit_zero (S := S512x1) origin2]

end Cert.KernelIdeal.ValSc

end
-- ==== Proof.Val.ScPay.lean ====
import proofs.«141866_j33835752358180_1_alg».proof.Proof.KI.Sc
import proofs.«141866_j33835752358180_1_alg».proof.Proof.Val.Spec

import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.ValSc

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.Hd
open scoped BigOperators

theorem lhs_qk_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_qk_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_qk_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_qk_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem qk_matmul_apply (a : FVec Ideal S512x1024 .bf16) (b : FVec Ideal S1024x1024 .bf16) (p : Fin 512) (j : Fin 1024) :
    matmul dot_S512x1024_S1024x1024_S512x1024_1_0_0_1_n_n none a b (constant (F := Ideal) S512x1024 .f32 0x00000000#32) (ix2 p j)
      = ∑ d : Fin 1024, a (ix2 p d) * b (ix2 d j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p j) ((contrEquiv1 dot_S512x1024_S1024x1024_S512x1024_1_0_0_1_n_n 1024 rfl rfl).symm k) = ix2 p k := funext fun a => Fin.ext (by
    match a with
    | ⟨0, _⟩ => exact lhs_qk_0 _ _
    | ⟨1, _⟩ => exact (lhs_qk_1 _ _).trans hk)
  have er : dot_S512x1024_S1024x1024_S512x1024_1_0_0_1_n_n.rhsIdx (ix2 p j) ((contrEquiv1 dot_S512x1024_S1024x1024_S512x1024_1_0_0_1_n_n 1024 rfl rfl).symm k) = ix2 k j := funext fun a => Fin.ext (by
    match a with
    | ⟨0, _⟩ => exact (rhs_qk_0 _ _).trans hk
    | ⟨1, _⟩ => exact rhs_qk_1 _ _)
  rw [el, er]

theorem kT_apply (b : FVec Ideal S1024x1024 .bf16) (d j : Fin 1024) :
    transpose S1024x1024 [1, 0] b transposes_S1024x1024_p1_0_S1024x1024 (ix2 d j) = b (ix2 j d) :=
  transpose_apply [1, 0] b transposes_S1024x1024_p1_0_S1024x1024 (ix2 d j) (ix2 j d) (fun a => by
    match a with
    | ⟨0, _⟩ => rfl
    | ⟨1, _⟩ => rfl)

theorem escore_block_apply (x0 : Vec Ideal S512x1024 .f32) (x1 : Vec Ideal S1024x1024 .f32) (p : Fin 512) (j : Fin 1024) :
    k3_pay1 (F := Ideal) x0 x1 (ix2 p j) = Ideal.exp ((∑ d : Fin 1024, x0 (ix2 p d) * x1 (ix2 j d)) * Cert.Spec.scale) := by
  unfold k3_pay1
  simp only [shapeCast_self]
  show Ideal.exp (matmul (F := Ideal) dot_S512x1024_S1024x1024_S512x1024_1_0_0_1_n_n none (truncf .bf16 x0 bitsLt_bf16_f32)
      (transpose S1024x1024 [1, 0] (truncf .bf16 x1 bitsLt_bf16_f32) transposes_S1024x1024_p1_0_S1024x1024)
      (constant (F := Ideal) S512x1024 .f32 0x00000000#32) (ix2 p j) * Cert.Spec.scale) = _
  rw [qk_matmul_apply]
  refine congrArg (fun s => Ideal.exp (s * Cert.Spec.scale)) (Finset.sum_congr rfl fun d _ => ?_)
  rw [kT_apply]
  rfl

theorem escore_store_apply (x0 : Vec Ideal S512x1024 .f32) (x1 : Vec Ideal S1024x1024 .f32) (p : Fin 512) (j : Fin 1024) :
    k3_pay2 (F := Ideal) x0 x1 (ix2 p j) = Ideal.exp ((∑ d : Fin 1024, x0 (ix2 p d) * x1 (ix2 j d)) * Cert.Spec.scale) := by
  unfold k3_pay2
  show k3_pay1 (F := Ideal) x0 x1 (ix2 p j) = _
  exact escore_block_apply x0 x1 p j

theorem reset_apply (p : Fin 512) (u : Fin 1) : k3_pay3 (F := Ideal) (ix2 p u) = 0 := by
  unfold k3_pay3
  show Ideal.ofBits .f32 0x00000000#32 = 0
  exact Ideal.ofBits_zero_f32

theorem column_apply {α : Type} (x : (⟨1, ![512]⟩ : Shape).Idx → α) (h : (⟨1, ![512]⟩ : Shape).ShapeCasts ⟨2, ![512, 1]⟩)
    (p : Fin 512) (u : Fin 1) : shapeCast ⟨2, ![512, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem rowsum_update_apply (x0 : Vec Ideal S512x1024 .f32) (x1 : Vec Ideal S1024x1024 .f32) (acc : Vec Ideal S512x1 .f32)
    (p : Fin 512) (u : Fin 1) :
    k3_pay4 (F := Ideal) x0 x1 acc (ix2 p u) = acc (ix2 p u) + ∑ j : Fin 1024, k3_pay1 (F := Ideal) x0 x1 (ix2 p j) := by
  unfold k3_pay4
  simp only [shapeCast_self]
  show acc (ix2 p u) + shapeCast S512x1 (multiReduction (F := Ideal) .add [1] S512 (k3_pay1 (F := Ideal) x0 x1) 0x00000000#32 reduces_S512x1024_S512 (.inl rfl) rfl) shapeCasts_S512_S512x1 (ix2 p u) = _
  refine congrArg (acc (ix2 p u) + ·) ?_
  refine (column_apply _ shapeCasts_S512_S512x1 p u).trans ?_
  refine (Ideal.multiReduction_add_single (k3_pay1 (F := Ideal) x0 x1) 0x00000000#32 reduces_S512x1024_S512 (.inl rfl) rfl (ix1 p)).trans ?_
  refine Finset.sum_congr rfl fun j _ => congrArg (k3_pay1 (F := Ideal) x0 x1) ?_
  funext a
  match a with
  | ⟨0, _⟩ => rfl
  | ⟨1, _⟩ => rfl

end Cert.KernelIdeal.ValSc

end
-- ==== Proof.Val.ScBlk.lean ====
import proofs.«141866_j33835752358180_1_alg».proof.Proof.KI.Sc
import proofs.«141866_j33835752358180_1_alg».proof.Proof.Val.Spec

import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.ValSc

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.Hd
open scoped BigOperators

variable (V : (c : Dev nD) → (b : Ref sig .tc) → Buf (Elt Ideal) ((c : Thread nD τ).loc b))

abbrev qarr (c : Dev nD) : Vec Ideal S4096x1024 .f32 := V c main_v1

abbrev karr (c : Dev nD) : Vec Ideal S4096x1024 .f32 := V c main_v3

abbrev qblk (c : Dev nD) (t : Fin cfg3.N) : Vec Ideal S512x1024 .f32 := iblk3 V c 0 t

abbrev kblk (c : Dev nD) (t : Fin cfg3.N) : Vec Ideal S1024x1024 .f32 := iblk3 V c 1 t

theorem qindex : ∀ t : Fin cfg3.N, win3_0.index t (0 : Fin 2) = t.val / 4 ∧ win3_0.index t (1 : Fin 2) = 0 :=
  (by decide +kernel : ∀ t : Fin grid3.N, _)
theorem kindex : ∀ t : Fin cfg3.N, win3_1.index t (0 : Fin 2) = t.val % 4 ∧ win3_1.index t (1 : Fin 2) = 0 :=
  (by decide +kernel : ∀ t : Fin grid3.N, _)
theorem eindex : ∀ t : Fin cfg3.N, win3_2.index t (0 : Fin 2) = t.val / 4 ∧ win3_2.index t (1 : Fin 2) = t.val % 4 :=
  (by decide +kernel : ∀ t : Fin grid3.N, _)
theorem rindex : ∀ t : Fin cfg3.N, win3_3.index t (0 : Fin 2) = t.val / 4 ∧ win3_3.index t (1 : Fin 2) = 0 :=
  (by decide +kernel : ∀ t : Fin grid3.N, _)

theorem qblk_apply (c : Dev nD) (t : Fin cfg3.N) (p : Fin 512) (d : Fin 1024) (r : Fin 4096)
    (hr : r.val = 512 * (t.val / 4) + p.val) : qblk V c t (ix2 p d) = qarr V c (ix2 r d) := by
  obtain ⟨e0, e1⟩ := qindex t
  show ((cfg3.win 0).blk t).view.read (Elt Ideal) (V c (Pipeline.arrRef spec3 0)) (ix2 p d) = _
  rw [View.read_apply]
  show V c main_v1 _ = V c main_v1 _
  refine congrArg (V c main_v1) ?_
  funext a
  apply Fin.ext
  match a with
  | ⟨0, _⟩ => show win3_0.index t (0 : Fin 2) * 512 + 1 * p.val = r.val; omega
  | ⟨1, _⟩ => show win3_0.index t (1 : Fin 2) * 1024 + 1 * d.val = d.val; omega

theorem kblk_apply (c : Dev nD) (t : Fin cfg3.N) (j : Fin 1024) (d : Fin 1024) (r : Fin 4096)
    (hr : r.val = 1024 * (t.val % 4) + j.val) : kblk V c t (ix2 j d) = karr V c (ix2 r d) := by
  obtain ⟨e0, e1⟩ := kindex t
  show ((cfg3.win 1).blk t).view.read (Elt Ideal) (V c (Pipeline.arrRef spec3 1)) (ix2 j d) = _
  rw [View.read_apply]
  show V c main_v3 _ = V c main_v3 _
  refine congrArg (V c main_v3) ?_
  funext a
  apply Fin.ext
  match a with
  | ⟨0, _⟩ => show win3_1.index t (0 : Fin 2) * 1024 + 1 * j.val = r.val; omega
  | ⟨1, _⟩ => show win3_1.index t (1 : Fin 2) * 1024 + 1 * d.val = d.val; omega

theorem mem_eblk (t : Fin cfg3.N) (i : S4096x4096.Idx) :
    i ∈ ((cfg3.win 2).blk t).view.set ↔ ∀ a : Fin 2, win3_2.index t a * S512x1024.size a ≤ (i a).val ∧ (i a).val < win3_2.index t a * S512x1024.size a + S512x1024.size a := by
  show i ∈ ((View.whole main_v6_0).slice (win3_2.rect t)).set ↔ _
  rw [View.set_slice_whole, Rect.mem_set_unit]
  exact Iff.rfl

theorem mem_rblk (t : Fin cfg3.N) (i : S4096x1.Idx) :
    i ∈ ((cfg3.win 3).blk t).view.set ↔ ∀ a : Fin 2, win3_3.index t a * S512x1.size a ≤ (i a).val ∧ (i a).val < win3_3.index t a * S512x1.size a + S512x1.size a := by
  show i ∈ ((View.whole main_v6_1).slice (win3_3.rect t)).set ↔ _
  rw [View.set_slice_whole, Rect.mem_set_unit]
  exact Iff.rfl

end Cert.KernelIdeal.ValSc

end
-- ==== Proof.Val.Sc.lean ====
import proofs.«141866_j33835752358180_1_alg».proof.Proof.Val.ScOut
import proofs.«141866_j33835752358180_1_alg».proof.Proof.Val.ScPay
import proofs.«141866_j33835752358180_1_alg».proof.Proof.Val.ScBlk
import proofs.«141866_j33835752358180_1_alg».proof.Proof.KI.Sc
import proofs.«141866_j33835752358180_1_alg».proof.Proof.Val.Spec

import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.ValSc

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.Hd
open scoped BigOperators

variable (V : (c : Dev nD) → (b : Ref sig .tc) → Buf (Elt Ideal) ((c : Thread nD τ).loc b))

theorem escore_at (c : Dev nD) (t : Fin cfg3.N) (p : Fin 512) (j : Fin 1024) (i : Cert.Spec.SE.Idx)
    (h0 : (i 0).val = 512 * (t.val / 4) + p.val) (h1 : (i 1).val = 1024 * (t.val % 4) + j.val) :
    k3_pay1 (F := Ideal) (qblk V c t) (kblk V c t) (ix2 p j) = Cert.Spec.escore (qarr V c) (karr V c) i := by
  refine (escore_block_apply (qblk V c t) (kblk V c t) p j).trans ?_
  show _ = Ideal.exp ((∑ d : Fin 1024, qarr V c (ix2 (i 0) d) * karr V c (ix2 (i 1) d)) * Cert.Spec.scale)
  refine congrArg (fun x => Ideal.exp (x * Cert.Spec.scale)) (Finset.sum_congr rfl fun d _ => ?_)
  rw [qblk_apply V c t p d (i 0) h0, kblk_apply V c t j d (i 1) h1]

theorem ebuf_eq (c : Dev nD) (t : Fin cfg3.N) :
    (outsAt3 V c t.val t.isLt).1 = k3_pay2 (F := Ideal) (qblk V c t) (kblk V c t) := by
  by_cases h0 : t.val % 4 = 0
  · rw [outsAt3_A V c t h0]
    dsimp only [ptA3]
    exact escoreBuf_reset (F := Ideal) c (pt3 t) ((hcond3_0 t).mpr h0) (iblk3 V c 0 t) (iblk3 V c 1 t)
  · rw [outsAt3_B V c t h0]
    dsimp only [ptB3]
    exact escoreBuf_step (F := Ideal) c (pt3 t) (fun h => h0 ((hcond3_0 t).mp h)) (iblk3 V c 0 t) (iblk3 V c 1 t) _

theorem escore_flushed (c : Dev nD) (t : Fin cfg3.N) (hf : (cfg3.win 2).flush t = true) :
    (dat3 V c).flushed 2 t = ((cfg3.win 2).blk t).view.read (Elt Ideal) (Cert.Spec.escore (qarr V c) (karr V c)) := by
  show (cfg3.win 2).cut (grid3.coords t) ((dat3 V c).after 2 t) = _
  rw [after3_2, ebuf_eq]
  obtain ⟨e0, e1⟩ := eindex t
  funext y
  obtain ⟨p, j, rfl⟩ : ∃ (p : Fin 512) (j : Fin 1024), y = ix2 p j := ⟨y 0, y 1, eq_ix2 y⟩
  show k3_pay1 (F := Ideal) (qblk V c t) (kblk V c t) (ix2 p j)
    = Cert.Spec.escore (qarr V c) (karr V c) (((cfg3.win 2).blk t).view.emb (ix2 p j))
  exact escore_at V c t p j _
    (by show win3_2.index t (0 : Fin 2) * 512 + 1 * p.val = _; omega)
    (by show win3_2.index t (1 : Fin 2) * 1024 + 1 * j.val = _; omega)

theorem escore_cover (i : S4096x4096.Idx) :
    ∃ t : Fin cfg3.N, (cfg3.win 2).flush t = true ∧ i ∈ ((cfg3.win 2).blk t).view.set := by
  have h0 : (i 0).val < 4096 := (i 0).isLt
  have h1 : (i 1).val < 4096 := (i 1).isLt
  have hN : cfg3.N = 32 := N_3
  obtain ⟨t, ht⟩ : ∃ t : Fin cfg3.N, t.val = 4 * ((i 0).val / 512) + (i 1).val / 1024 := ⟨⟨_, by omega⟩, rfl⟩
  obtain ⟨e0, e1⟩ := eindex t
  refine ⟨t, flush3_2 t, ?_⟩
  rw [mem_eblk]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 1024 ≤ (i 1).val ∧ (i 1).val < win3_2.index t (1 : Fin 2) * 1024 + 1024; omega

theorem escore_value (c : Dev nD) :
    (dat3 (F := Ideal) V c).arrAt 2 cfg3.N = Cert.Spec.escore (V c main_v1) (V c main_v3) :=
  (dat3 V c).arrAt_eq_of_cover 2 (Cert.Spec.escore (qarr V c) (karr V c)) (escore_flushed V c) escore_cover

def addend (c : Dev nD) (n : ℕ) (i : S512x1.Idx) : EReal :=
  if h : n < cfg3.N then ∑ j : Fin 1024, k3_pay1 (F := Ideal) (qblk V c ⟨n, h⟩) (kblk V c ⟨n, h⟩) (ix2 (i 0) j) else 0

theorem addend_eq (c : Dev nD) (n : ℕ) (h : n < cfg3.N) (i : S512x1.Idx) :
    addend V c n i = ∑ j : Fin 1024, k3_pay1 (F := Ideal) (qblk V c ⟨n, h⟩) (kblk V c ⟨n, h⟩) (ix2 (i 0) j) := dif_pos h

abbrev rsAt (c : Dev nD) (n : ℕ) (h : n < cfg3.N) : S512x1.Idx → EReal := (outsAt3 V c n h).2

abbrev rsReset (c : Dev nD) (n : ℕ) (h : n < cfg3.N) : S512x1.Idx → EReal :=
  k3_pay4 (F := Ideal) (qblk V c ⟨n, h⟩) (kblk V c ⟨n, h⟩) (k3_pay3 (F := Ideal))

abbrev rsStep (c : Dev nD) (n : ℕ) (h : n < cfg3.N) (acc : S512x1.Idx → EReal) : S512x1.Idx → EReal :=
  k3_pay4 (F := Ideal) (qblk V c ⟨n, h⟩) (kblk V c ⟨n, h⟩) acc

theorem update_eq (c : Dev nD) (n : ℕ) (h : n < cfg3.N) (acc : S512x1.Idx → EReal) (i : S512x1.Idx) :
    k3_pay4 (F := Ideal) (qblk V c ⟨n, h⟩) (kblk V c ⟨n, h⟩) acc i = acc i + addend V c n i := by
  obtain ⟨p, u, rfl⟩ : ∃ (p : Fin 512) (u : Fin 1), i = ix2 p u := ⟨i 0, i 1, eq_ix2 i⟩
  refine (rowsum_update_apply (qblk V c ⟨n, h⟩) (kblk V c ⟨n, h⟩) acc p u).trans ?_
  rw [addend_eq V c n h]

theorem rs_reset (c : Dev nD) : ∀ (n : ℕ) (h : n < cfg3.N), n % 4 = 0 → rsAt V c n h = rsReset V c n h := by
  intro n h hm
  show (outsAt3 V c n h).2 = _
  rw [outsAt3_A V c ⟨n, h⟩ hm]
  dsimp only [ptA3]
  exact rowsumBuf_reset (F := Ideal) c (pt3 ⟨n, h⟩) ((hcond3_0 ⟨n, h⟩).mpr hm) (iblk3 V c 0 ⟨n, h⟩) (iblk3 V c 1 ⟨n, h⟩)

theorem rs_step (c : Dev nD) : ∀ (n : ℕ) (h : n + 1 < cfg3.N), ¬(n + 1) % 4 = 0 →
    rsAt V c (n + 1) h = rsStep V c (n + 1) h (rsAt V c n (Nat.lt_of_succ_lt h)) := by
  intro n h hm
  show (outsAt3 V c (n + 1) h).2 = _
  rw [outsAt3_B V c ⟨n + 1, h⟩ hm]
  dsimp only [ptB3]
  exact rowsumBuf_step (F := Ideal) c (pt3 ⟨n + 1, h⟩) (fun hh => hm ((hcond3_0 ⟨n + 1, h⟩).mp hh)) (iblk3 V c 0 ⟨n + 1, h⟩) (iblk3 V c 1 ⟨n + 1, h⟩) _

theorem rowsum_fold (c : Dev nD) (t : Fin cfg3.N) (h3 : t.val % 4 = 3) (i : S512x1.Idx) :
    (outsAt3 V c t.val t.isLt).2 i = ∑ s : Fin 4, addend V c (4 * (t.val / 4) + s.val) i := by
  have hN : cfg3.N = 32 := N_3
  have ht := t.isLt
  have h' : 4 * (t.val / 4) + t.val % 4 < cfg3.N := by omega
  have e := Pipeline.eq_accAt_of_mod (rsAt V c) 4 (rsReset V c) (rsStep V c) (rs_reset V c) (rs_step V c) (by decide) t.val t.isLt h'
  have f := Pipeline.accAt_add_apply (rsReset V c) (rsStep V c) (fun _ => (0 : EReal)) (addend V c) (4 * (t.val / 4)) 3
    (fun h i => by
      obtain ⟨p, u, rfl⟩ : ∃ (p : Fin 512) (u : Fin 1), i = ix2 p u := ⟨i 0, i 1, eq_ix2 i⟩
      exact (update_eq V c _ h _ (ix2 p u)).trans (congrArg (· + addend V c (4 * (t.val / 4)) (ix2 p u)) (reset_apply p u)))
    (fun n h acc i _ _ => update_eq V c n h acc i)
    (t.val % 4) (by omega) h' i
  show rsAt V c t.val t.isLt i = _
  rw [e, f, zero_add, h3]
  exact Finset.sum_range (fun s => addend V c (4 * (t.val / 4) + s) i)

theorem rowsum_reindex (c : Dev nD) (t : Fin cfg3.N) (p : Fin 512) (u : Fin 1) (i : Cert.Spec.SD.Idx)
    (hr : (i 0).val = 512 * (t.val / 4) + p.val) :
    ∑ s : Fin 4, addend V c (4 * (t.val / 4) + s.val) (ix2 p u) = Cert.Spec.rowsum (qarr V c) (karr V c) i := by
  have hN : cfg3.N = 32 := N_3
  have ht := t.isLt
  show _ = ∑ j : Fin 4096, Cert.Spec.escore (qarr V c) (karr V c) (ix2 (i 0) j)
  rw [← Equiv.sum_comp (finProdFinEquiv (m := 4) (n := 1024)) (fun j => Cert.Spec.escore (qarr V c) (karr V c) (ix2 (i 0) j)),
    Fintype.sum_prod_type]
  refine Finset.sum_congr rfl fun s _ => ?_
  have hs := s.isLt
  have hlt : 4 * (t.val / 4) + s.val < cfg3.N := by omega
  rw [addend_eq V c _ hlt]
  refine Finset.sum_congr rfl fun j _ => ?_
  have hj := j.isLt
  exact escore_at V c ⟨4 * (t.val / 4) + s.val, hlt⟩ p j (ix2 (i 0) (finProdFinEquiv (s, j)))
    (by show (i 0).val = 512 * ((4 * (t.val / 4) + s.val) / 4) + p.val; omega)
    (by show ((finProdFinEquiv (s, j) : Fin (4 * 1024)) : ℕ) = 1024 * ((4 * (t.val / 4) + s.val) % 4) + j.val
        rw [finProdFinEquiv_apply_val]; show j.val + 1024 * s.val = _; omega)

theorem rowsum_flushed (c : Dev nD) (t : Fin cfg3.N) (hf : (cfg3.win 3).flush t = true) :
    (dat3 V c).flushed 3 t = ((cfg3.win 3).blk t).view.read (Elt Ideal) (Cert.Spec.rowsum (qarr V c) (karr V c)) := by
  have h3 : t.val % 4 = 3 := (flush3_3 t).mp hf
  show (cfg3.win 3).cut (grid3.coords t) ((dat3 V c).after 3 t) = _
  rw [after3_3]
  obtain ⟨e0, e1⟩ := rindex t
  funext y
  obtain ⟨p, u, rfl⟩ : ∃ (p : Fin 512) (u : Fin 1), y = ix2 p u := ⟨y 0, y 1, eq_ix2 y⟩
  show (outsAt3 V c t.val t.isLt).2 (ix2 p u)
    = Cert.Spec.rowsum (qarr V c) (karr V c) (((cfg3.win 3).blk t).view.emb (ix2 p u))
  rw [rowsum_fold V c t h3]
  exact rowsum_reindex V c t p u _ (by show win3_3.index t (0 : Fin 2) * 512 + 1 * p.val = _; omega)

theorem rowsum_cover (i : S4096x1.Idx) :
    ∃ t : Fin cfg3.N, (cfg3.win 3).flush t = true ∧ i ∈ ((cfg3.win 3).blk t).view.set := by
  have h0 : (i 0).val < 4096 := (i 0).isLt
  have h1 : (i 1).val < 1 := (i 1).isLt
  have hN : cfg3.N = 32 := N_3
  obtain ⟨t, ht⟩ : ∃ t : Fin cfg3.N, t.val = 4 * ((i 0).val / 512) + 3 := ⟨⟨_, by omega⟩, rfl⟩
  obtain ⟨e0, e1⟩ := rindex t
  refine ⟨t, (flush3_3 t).mpr (by omega), ?_⟩
  rw [mem_rblk]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1 ≤ (i 1).val ∧ (i 1).val < win3_3.index t (1 : Fin 2) * 1 + 1; omega

theorem rowsum_value (c : Dev nD) :
    (dat3 (F := Ideal) V c).arrAt 3 cfg3.N = Cert.Spec.rowsum (V c main_v1) (V c main_v3) :=
  (dat3 V c).arrAt_eq_of_cover 3 (Cert.Spec.rowsum (qarr V c) (karr V c)) (rowsum_flushed V c) rowsum_cover

end Cert.KernelIdeal.ValSc

end
-- ==== Proof.Val.OutPieces.lean ====
import proofs.«141866_j33835752358180_1_alg».proof.Proof.KI.Out
import Idealize.ShloMosaic.Lib.Pipeline.Value
import Idealize.ShloMosaic.Lib.ValueIdx
import Idealize.ShloMosaic.Lib.Tactic

set_option maxRecDepth 16384

noncomputable section

namespace Cert.KernelIdeal.ValOut

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

open Cert.KernelIdeal.Hd

variable {F : FTy → Type} [FloatOps F]

theorem hz : (![0, 0] : Fin 2 → Nat) = fun _ => 0 := funext fun a => by fin_cases a <;> rfl

variable (c : Dev nD) (P : Pt4)

theorem sout_A (hc0 : cond4_0 P.i) (hc1 : ¬cond4_1 P.i)
    (x0 : Vec F S512x1024 .bf16) (x1 : Vec F S1024x1024 .f32) (x2 : Vec F S1024x1 .f32) :
    sout4_A_0 c P hc0 hc1 x0 x1 x2 = k4_pay2 x1 x2 (k4_pay1 (F := F)) x0 := by
  unfold sout4_A_0
  rw [View.read_writes_eq_canon _ _ _ (scover4_A_0 c P hc0 hc1 x0 x1 x2)]
  unfold kernelRun4_A
  dsimp only
  sl_unfold_words
  rw [View.canon_cons_unit_zero (S := S512x1024) hz]
  simp only [View.readAt_eq_ld, P.h2.read_unread, P.h3.read_unread, P.h4.read_unread, P.h6.read_unread, View.ld_unit_zero (S := S512x1024) hz, View.ld_unit_zero (S := S1024x1024) hz, View.ld_unit_zero (S := S1024x1) hz, View.readCov_unit_zero (S := S512x1024) _ hz]

theorem sout_B (hc0 : ¬cond4_0 P.i) (hc1 : ¬cond4_1 P.i)
    (x0 : Vec F S512x1024 .bf16) (x1 : Vec F S1024x1024 .f32) (x2 : Vec F S1024x1 .f32) (xs0 : Vec F S512x1024 .f32) :
    sout4_B_0 c P hc0 hc1 x0 x1 x2 xs0 = k4_pay2 x1 x2 xs0 x0 := by
  unfold sout4_B_0
  rw [View.read_writes_eq_canon _ _ _ (scover4_B_0 c P hc0 hc1 x0 x1 x2 xs0)]
  unfold kernelRun4_B
  dsimp only
  sl_unfold_words
  rw [View.canon_unit_zero (S := S512x1024) hz]
  simp only [View.readAt_eq_ld, P.h2.read_unread, P.h3.read_unread, P.h4.read_unread, P.h6.read_unread, View.ld_unit_zero (S := S512x1024) hz, View.ld_unit_zero (S := S1024x1024) hz, View.ld_unit_zero (S := S1024x1) hz, View.readCov_unit_zero (S := S512x1024) _ hz]

theorem sout_C (hc0 : ¬cond4_0 P.i) (hc1 : cond4_1 P.i)
    (x0 : Vec F S512x1024 .bf16) (x1 : Vec F S1024x1024 .f32) (x2 : Vec F S1024x1 .f32) (xs0 : Vec F S512x1024 .f32) :
    sout4_C_0 c P hc0 hc1 x0 x1 x2 xs0 = k4_pay2 x1 x2 xs0 x0 := by
  unfold sout4_C_0
  rw [View.read_writes_eq_canon _ _ _ (scover4_C_0 c P hc0 hc1 x0 x1 x2 xs0)]
  unfold kernelRun4_C
  dsimp only
  sl_unfold_words
  rw [View.canon_unit_zero (S := S512x1024) hz]
  simp only [View.readAt_eq_ld, P.h2.read_unread, P.h3.read_unread, P.h4.read_unread, P.h6.read_unread, View.ld_unit_zero (S := S512x1024) hz, View.ld_unit_zero (S := S1024x1024) hz, View.ld_unit_zero (S := S1024x1) hz, View.readCov_unit_zero (S := S512x1024) _ hz]

theorem out_C (hc0 : ¬cond4_0 P.i) (hc1 : cond4_1 P.i)
    (x0 : Vec F S512x1024 .bf16) (x1 : Vec F S1024x1024 .f32) (x2 : Vec F S1024x1 .f32) (xs0 : Vec F S512x1024 .f32) :
    out4_C_3 c P hc0 hc1 x0 x1 x2 xs0 = k4_pay2 x1 x2 xs0 x0 := by
  unfold out4_C_3
  rw [View.read_writes_eq_canon _ _ _ (cover4_C_3 c P hc0 hc1 x0 x1 x2 xs0)]
  unfold kernelRun4_C
  dsimp only
  sl_unfold_words
  rw [View.canon_unit_zero (S := S512x1024) hz]
  simp only [View.readAt_eq_ld, P.h2.read_unread, P.h3.read_unread, P.h4.read_unread, P.h6.read_unread, View.ld_unit_zero (S := S512x1024) hz, View.ld_unit_zero (S := S1024x1024) hz, View.ld_unit_zero (S := S1024x1) hz, View.readCov_unit_zero (S := S512x1024) _ hz]

end Cert.KernelIdeal.ValOut

end
-- ==== Proof.Val.OutPay.lean ====
import proofs.«141866_j33835752358180_1_alg».proof.Proof.Val.ScPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ValOut

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

theorem bcast_col_apply (x : Vec Ideal S1024x1 .f32) (k q : Fin 1024) :
    broadcastTo S1024x1024 x broadcasts_S1024x1_S1024x1024 (ix2 k q) = x (ix2 k 0) :=
  broadcastTo_apply x broadcasts_S1024x1_S1024x1024 (ix2 k q) (ix2 k 0) (fun a => by
    match a with
    | ⟨0, _⟩ => rfl
    | ⟨1, _⟩ => rfl)

theorem pay2_apply (v3 : Vec Ideal S1024x1024 .f32) (v5 : Vec Ideal S1024x1 .f32) (v10 : Vec Ideal S512x1024 .f32)
    (v11 : Vec Ideal S512x1024 .bf16) (p : Fin 512) (q : Fin 1024) :
    k4_pay2 (F := Ideal) v3 v5 v10 v11 (ix2 p q)
      = v10 (ix2 p q) + ∑ k : Fin 1024, v11 (ix2 p k) * Ideal.div (v3 (ix2 k q)) (v5 (ix2 k 0)) := by
  unfold k4_pay2
  simp only [shapeCast_self]
  refine (addf_apply _ _ _).trans ?_
  refine congrArg (v10 (ix2 p q) + ·) ?_
  refine (ValSc.qk_matmul_apply _ _ p q).trans (Finset.sum_congr rfl fun k _ => ?_)
  refine congrArg (v11 (ix2 p k) * ·) ?_
  refine (truncf_apply (ψ := .bf16) (divf v3 (broadcastTo S1024x1024 v5 broadcasts_S1024x1_S1024x1024)) bitsLt_bf16_f32 (ix2 k q)).trans ?_
  refine (divf_apply v3 (broadcastTo S1024x1024 v5 broadcasts_S1024x1_S1024x1024) (ix2 k q)).trans ?_
  exact congrArg (Ideal.div (v3 (ix2 k q))) (bcast_col_apply v5 k q)

theorem pay1_apply (i : S512x1024.Idx) : k4_pay1 (F := Ideal) i = 0 := by
  unfold k4_pay1
  simp only [shapeCast_self]
  exact Ideal.ofBits_zero_f32

end Cert.KernelIdeal.ValOut

end
-- ==== Proof.Val.OutBlocks.lean ====
import proofs.«141866_j33835752358180_1_alg».proof.Proof.KI.Out.Runs
import Idealize.ShloMosaic.Lib.Pipeline.Value
import Idealize.ShloMosaic.Lib.ValueIdx

set_option maxRecDepth 16384

noncomputable section

namespace Cert.KernelIdeal.ValOut

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

open Cert.KernelIdeal.Hd

variable (V : (c : Dev nD) → (b : Ref sig .tc) → Buf (Elt Ideal) ((c : Thread nD τ).loc b))

abbrev eblk (c : Dev nD) (t : Fin cfg4.N) : Vec Ideal S512x1024 .bf16 := iblk4 V c 0 t

abbrev vblk (c : Dev nD) (t : Fin cfg4.N) : Vec Ideal S1024x1024 .f32 := iblk4 V c 1 t

abbrev sblk (c : Dev nD) (t : Fin cfg4.N) : Vec Ideal S1024x1 .f32 := iblk4 V c 2 t

abbrev earr (c : Dev nD) : Vec Ideal S4096x4096 .bf16 := V c main_v6_0

abbrev varr (c : Dev nD) : Vec Ideal S4096x1024 .f32 := V c main_v5

abbrev sarr (c : Dev nD) : Vec Ideal S4096x1 .f32 := V c main_v6_1

theorem idx_facts : ∀ t : Fin cfg4.N, win4_0.index t (0 : Fin 2) = t.val / 4 ∧ win4_0.index t (1 : Fin 2) = t.val % 4
    ∧ win4_1.index t (0 : Fin 2) = t.val % 4 ∧ win4_1.index t (1 : Fin 2) = 0
    ∧ win4_2.index t (0 : Fin 2) = t.val % 4 ∧ win4_2.index t (1 : Fin 2) = 0
    ∧ win4_3.index t (0 : Fin 2) = t.val / 4 ∧ win4_3.index t (1 : Fin 2) = 0 :=
  (by decide +kernel : ∀ t : Fin grid4.N, _)

theorem eblk_apply (c : Dev nD) (t : Fin cfg4.N) (p : Fin 512) (k : Fin 1024) (P K : Fin 4096)
    (hP : P.val = 512 * (t.val / 4) + p.val) (hK : K.val = 1024 * (t.val % 4) + k.val) :
    eblk V c t (ix2 p k) = earr V c (ix2 P K) := by
  obtain ⟨e0, e1, -⟩ := idx_facts t
  show ((cfg4.win 0).blk t).view.read (Elt Ideal) (V c (Pipeline.arrRef spec4 0)) (ix2 p k) = _
  rw [View.read_apply]
  show V c main_v6_0 _ = V c main_v6_0 _
  refine congrArg (V c main_v6_0) (funext fun a => Fin.ext ?_)
  match a with
  | ⟨0, _⟩ => show win4_0.index t (0 : Fin 2) * 512 + 1 * p.val = P.val; omega
  | ⟨1, _⟩ => show win4_0.index t (1 : Fin 2) * 1024 + 1 * k.val = K.val; omega

theorem vblk_apply (c : Dev nD) (t : Fin cfg4.N) (k q : Fin 1024) (K : Fin 4096)
    (hK : K.val = 1024 * (t.val % 4) + k.val) :
    vblk V c t (ix2 k q) = varr V c (ix2 K q) := by
  obtain ⟨-, -, e2, e3, -⟩ := idx_facts t
  show ((cfg4.win 1).blk t).view.read (Elt Ideal) (V c (Pipeline.arrRef spec4 1)) (ix2 k q) = _
  rw [View.read_apply]
  show V c main_v5 _ = V c main_v5 _
  refine congrArg (V c main_v5) (funext fun a => Fin.ext ?_)
  match a with
  | ⟨0, _⟩ => show win4_1.index t (0 : Fin 2) * 1024 + 1 * k.val = K.val; omega
  | ⟨1, _⟩ => show win4_1.index t (1 : Fin 2) * 1024 + 1 * q.val = q.val; omega

theorem sblk_apply (c : Dev nD) (t : Fin cfg4.N) (k : Fin 1024) (K : Fin 4096)
    (hK : K.val = 1024 * (t.val % 4) + k.val) :
    sblk V c t (ix2 k 0) = sarr V c (ix2 K 0) := by
  obtain ⟨-, -, -, -, e4, e5, -⟩ := idx_facts t
  show ((cfg4.win 2).blk t).view.read (Elt Ideal) (V c (Pipeline.arrRef spec4 2)) (ix2 k 0) = _
  rw [View.read_apply]
  show V c main_v6_1 _ = V c main_v6_1 _
  refine congrArg (V c main_v6_1) (funext fun a => Fin.ext ?_)
  match a with
  | ⟨0, _⟩ => show win4_2.index t (0 : Fin 2) * 1024 + 1 * k.val = K.val; omega
  | ⟨1, _⟩ => show win4_2.index t (1 : Fin 2) * 1 + 1 * (0 : Fin 1).val = (0 : Fin 1).val; omega

end Cert.KernelIdeal.ValOut

end
-- ==== Proof.Val.OutAcc.lean ====
import proofs.«141866_j33835752358180_1_alg».proof.Proof.Val.OutPieces
import proofs.«141866_j33835752358180_1_alg».proof.Proof.Val.OutPay
import proofs.«141866_j33835752358180_1_alg».proof.Proof.Val.OutBlocks

set_option maxRecDepth 16384

noncomputable section

namespace Cert.KernelIdeal.ValOut

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

open Cert.KernelIdeal.Hd

variable (V : (c : Dev nD) → (b : Ref sig .tc) → Buf (Elt Ideal) ((c : Thread nD τ).loc b))

def resetAt (c : Dev nD) (n : ℕ) (h : n < cfg4.N) : Vec Ideal S512x1024 .f32 :=
  k4_pay2 (F := Ideal) (vblk V c ⟨n, h⟩) (sblk V c ⟨n, h⟩) (k4_pay1 (F := Ideal)) (eblk V c ⟨n, h⟩)

def stepAt (c : Dev nD) (n : ℕ) (h : n < cfg4.N) (acc : Vec Ideal S512x1024 .f32) : Vec Ideal S512x1024 .f32 :=
  k4_pay2 (F := Ideal) (vblk V c ⟨n, h⟩) (sblk V c ⟨n, h⟩) acc (eblk V c ⟨n, h⟩)

theorem acc_first (c : Dev nD) (t : Fin cfg4.N) (h0 : t.val % 4 = 0) :
    (outsAt4 V c t.val t.isLt).2 = resetAt V c t.val t.isLt := by
  rw [outsAt4_A V c t h0]
  dsimp only [ptA4]
  exact sout_A (F := Ideal) c (pt4 t) _ _ (iblk4 V c 0 t) (iblk4 V c 1 t) (iblk4 V c 2 t)

theorem acc_later (c : Dev nD) (n : ℕ) (h : n + 1 < cfg4.N) (h0 : ¬(n + 1) % 4 = 0) :
    (outsAt4 V c (n + 1) h).2 = stepAt V c (n + 1) h ((outsAt4 V c n (Nat.lt_of_succ_lt h)).2) := by
  by_cases h1 : (n + 1) % 4 = 3
  · rw [outsAt4_C V c ⟨n + 1, h⟩ h1]
    dsimp only [ptC4]
    exact sout_C (F := Ideal) c (pt4 ⟨n + 1, h⟩) _ _ (iblk4 V c 0 ⟨n + 1, h⟩) (iblk4 V c 1 ⟨n + 1, h⟩) (iblk4 V c 2 ⟨n + 1, h⟩) ((outsAt4 V c n (Nat.lt_of_succ_lt h)).2)
  · rw [outsAt4_B V c ⟨n + 1, h⟩ h0 h1]
    dsimp only [ptB4]
    exact sout_B (F := Ideal) c (pt4 ⟨n + 1, h⟩) _ _ (iblk4 V c 0 ⟨n + 1, h⟩) (iblk4 V c 1 ⟨n + 1, h⟩) (iblk4 V c 2 ⟨n + 1, h⟩) ((outsAt4 V c n (Nat.lt_of_succ_lt h)).2)

theorem out_last (c : Dev nD) (t : Fin cfg4.N) (h3 : t.val % 4 = 3) :
    (outsAt4 V c t.val t.isLt).1 = (outsAt4 V c t.val t.isLt).2 := by
  rw [outsAt4_C V c t h3]
  dsimp only [ptC4]
  exact (out_C (F := Ideal) c (pt4 t) _ _ (iblk4 V c 0 t) (iblk4 V c 1 t) (iblk4 V c 2 t) ((outsAt4 V c (t.val - 1) (Nat.lt_of_le_of_lt (Nat.sub_le _ _) t.isLt)).2)).trans
    (sout_C (F := Ideal) c (pt4 t) _ _ (iblk4 V c 0 t) (iblk4 V c 1 t) (iblk4 V c 2 t) ((outsAt4 V c (t.val - 1) (Nat.lt_of_le_of_lt (Nat.sub_le _ _) t.isLt)).2)).symm

theorem acc_fold (c : Dev nD) (qi : ℕ) (hq : 4 * qi + 3 < cfg4.N) :
    (outsAt4 V c (4 * qi + 3) hq).2 = Pipeline.accAt (resetAt V c) (stepAt V c) (4 * qi) 3 hq :=
  Pipeline.eq_accAt (fun n h => (outsAt4 V c n h).2) 4 (resetAt V c) (stepAt V c)
    (fun n h hn => acc_first V c ⟨n, h⟩ hn) (fun n h hn => acc_later V c n h hn) qi 3 (by decide) hq

def addend (c : Dev nD) (n : ℕ) (p : Fin 512) (q : Fin 1024) : EReal :=
  if h : n < cfg4.N then
    ∑ k : Fin 1024, eblk V c ⟨n, h⟩ (ix2 p k) * Ideal.div (vblk V c ⟨n, h⟩ (ix2 k q)) (sblk V c ⟨n, h⟩ (ix2 k 0))
  else 0

theorem acc_run_apply (c : Dev nD) (qi : ℕ) (hq : 4 * qi + 3 < cfg4.N) (p : Fin 512) (q : Fin 1024) :
    (outsAt4 V c (4 * qi + 3) hq).2 (ix2 p q) = ∑ s ∈ Finset.range 4, addend V c (4 * qi + s) p q := by
  rw [acc_fold V c qi hq]
  refine (Pipeline.accAt_add_apply (resetAt V c) (stepAt V c) (fun _ => (0 : EReal))
    (fun n (i : S512x1024.Idx) => addend V c n (i 0) (i 1)) (4 * qi) 3 ?_ ?_ 3 le_rfl hq (ix2 p q)).trans (zero_add _)
  · intro h i
    obtain ⟨p', q', rfl⟩ : ∃ (p' : Fin 512) (q' : Fin 1024), i = ix2 p' q' := ⟨i 0, i 1, eq_ix2 i⟩
    unfold resetAt
    rw [pay2_apply, pay1_apply]
    show _ = 0 + addend V c (4 * qi) p' q'
    unfold addend
    rw [dif_pos h]
  · intro n h acc i _ _
    obtain ⟨p', q', rfl⟩ : ∃ (p' : Fin 512) (q' : Fin 1024), i = ix2 p' q' := ⟨i 0, i 1, eq_ix2 i⟩
    unfold stepAt
    rw [pay2_apply]
    show _ = acc (ix2 p' q') + addend V c n p' q'
    unfold addend
    rw [dif_pos h]

end Cert.KernelIdeal.ValOut

end
-- ==== Proof.Val.Out.lean ====
import proofs.«141866_j33835752358180_1_alg».proof.Proof.Val.OutAcc
import proofs.«141866_j33835752358180_1_alg».proof.Proof.Val.Spec

set_option maxRecDepth 16384

noncomputable section

namespace Cert.KernelIdeal.ValOut

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

open Cert.KernelIdeal.Hd

variable (V : (c : Dev nD) → (b : Ref sig .tc) → Buf (Elt Ideal) ((c : Thread nD τ).loc b))

theorem sum_blocks (G : Fin 4096 → EReal) :
    ∑ j : Fin 4096, G j
      = ∑ s : Fin 4, ∑ k : Fin 1024, G ⟨1024 * s.val + k.val, by have := s.isLt; have := k.isLt; omega⟩ := by
  rw [← Equiv.sum_comp (finProdFinEquiv : Fin 4 × Fin 1024 ≃ Fin 4096) G, Fintype.sum_prod_type]
  refine Finset.sum_congr rfl fun s _ => Finset.sum_congr rfl fun k _ => congrArg G (Fin.ext ?_)
  show k.val + 1024 * s.val = 1024 * s.val + k.val
  omega

theorem addend_eq (c : Dev nD) (qi : ℕ) (hq : 4 * qi + 3 < cfg4.N) (s : Fin 4) (p : Fin 512) (q : Fin 1024)
    (P : Fin 4096) (hP : P.val = 512 * qi + p.val) :
    addend V c (4 * qi + s.val) p q
      = ∑ k : Fin 1024, (fun j : Fin 4096 => earr V c (ix2 P j) * Ideal.div (varr V c (ix2 j q)) (sarr V c (ix2 j 0))) ⟨1024 * s.val + k.val, by have := s.isLt; have := k.isLt; omega⟩ := by
  have hs := s.isLt
  have hn : 4 * qi + s.val < cfg4.N := by omega
  have hdiv : (4 * qi + s.val) / 4 = qi := by omega
  have hmod : (4 * qi + s.val) % 4 = s.val := by omega
  unfold addend
  rw [dif_pos hn]
  refine Finset.sum_congr rfl fun k _ => ?_
  have hk := k.isLt
  rw [eblk_apply V c ⟨4 * qi + s.val, hn⟩ p k P ⟨1024 * s.val + k.val, by omega⟩
        (by show P.val = 512 * ((4 * qi + s.val) / 4) + p.val; rw [hdiv]; exact hP)
        (by show 1024 * s.val + k.val = 1024 * ((4 * qi + s.val) % 4) + k.val; rw [hmod]),
      vblk_apply V c ⟨4 * qi + s.val, hn⟩ k q ⟨1024 * s.val + k.val, by omega⟩
        (by show 1024 * s.val + k.val = 1024 * ((4 * qi + s.val) % 4) + k.val; rw [hmod]),
      sblk_apply V c ⟨4 * qi + s.val, hn⟩ k ⟨1024 * s.val + k.val, by omega⟩
        (by show 1024 * s.val + k.val = 1024 * ((4 * qi + s.val) % 4) + k.val; rw [hmod])]

theorem out_block_apply (c : Dev nD) (t : Fin cfg4.N) (h3 : t.val % 4 = 3) (p : Fin 512) (q : Fin 1024)
    (P : Fin 4096) (hP : P.val = 512 * (t.val / 4) + p.val) :
    (outsAt4 V c t.val t.isLt).1 (ix2 p q)
      = ∑ j : Fin 4096, earr V c (ix2 P j) * Ideal.div (varr V c (ix2 j q)) (sarr V c (ix2 j 0)) := by
  rw [out_last V c t h3]
  obtain ⟨n, hn⟩ := t
  dsimp only at h3 hP ⊢
  obtain ⟨qi, rfl⟩ : ∃ qi, n = 4 * qi + 3 := ⟨n / 4, by omega⟩
  rw [acc_run_apply V c qi hn p q, Finset.sum_range]
  refine Eq.trans ?_ (sum_blocks (fun j : Fin 4096 => earr V c (ix2 P j) * Ideal.div (varr V c (ix2 j q)) (sarr V c (ix2 j 0)))).symm
  refine Finset.sum_congr rfl fun s _ => ?_
  exact addend_eq V c qi hn s p q P (by omega)

abbrev result (c : Dev nD) : Vec Ideal S4096x1024 .f32 := Cert.Spec.outp (earr V c) (varr V c) (sarr V c)

theorem flushed_eq (c : Dev nD) (t : Fin cfg4.N) (hf : (cfg4.win 3).flush t = true) :
    (dat4 (F := Ideal) V c).flushed 3 t = ((cfg4.win 3).blk t).view.read (Elt Ideal) (result V c) := by
  have h3 : t.val % 4 = 3 := (flush4_3 t).mp hf
  obtain ⟨-, -, -, -, -, -, e6, e7⟩ := idx_facts t
  have hN : cfg4.N = 32 := N_4
  have ht := t.isLt
  show (cfg4.win 3).cut (grid4.coords t) ((dat4 (F := Ideal) V c).after 3 t) = _
  rw [after4_3]
  funext j
  obtain ⟨p, q, rfl⟩ : ∃ (p : Fin 512) (q : Fin 1024), j = ix2 p q := ⟨j 0, j 1, eq_ix2 j⟩
  rw [View.read_apply]
  have hp := p.isLt
  have hP : 512 * (t.val / 4) + p.val < 4096 := by omega
  have hemb : ((cfg4.win 3).blk t).view.emb (ix2 p q) = (ix2 (⟨512 * (t.val / 4) + p.val, hP⟩ : Fin 4096) q : S4096x1024.Idx) :=
    funext fun a => Fin.ext (by
      match a with
      | ⟨0, _⟩ => show win4_3.index t (0 : Fin 2) * 512 + 1 * p.val = 512 * (t.val / 4) + p.val; omega
      | ⟨1, _⟩ => show win4_3.index t (1 : Fin 2) * 1024 + 1 * q.val = q.val; omega)
  rw [hemb]
  show (outsAt4 V c t.val t.isLt).1 (ix2 p q)
    = ∑ j : Fin 4096, earr V c (ix2 (⟨512 * (t.val / 4) + p.val, hP⟩ : Fin 4096) j) * Ideal.div (varr V c (ix2 j q)) (sarr V c (ix2 j 0))
  exact out_block_apply V c t h3 p q ⟨512 * (t.val / 4) + p.val, hP⟩ rfl

theorem covered (c : Dev nD) (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  have hN : cfg4.N = 32 := N_4
  obtain ⟨t, ht⟩ : ∃ t : Fin cfg4.N, t.val = 4 * ((i 0).val / 512) + 3 := ⟨⟨4 * ((i 0).val / 512) + 3, by omega⟩, rfl⟩
  obtain ⟨-, -, -, -, -, -, e6, e7⟩ := idx_facts t
  refine ⟨t, (flush4_3 t).mpr (by omega), ?_⟩
  show i ∈ ((View.whole main_v7).slice (win4_3.rect t)).set
  rw [View.set_slice_whole, Rect.mem_set_unit]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

theorem outp_value (c : Dev nD) :
    (dat4 (F := Ideal) V c).arrAt 3 cfg4.N = Cert.Spec.outp (V c main_v6_0) (V c main_v5) (V c main_v6_1) :=
  (dat4 (F := Ideal) V c).arrAt_eq_of_cover 3 (result V c) (fun t hf => flushed_eq V c t hf) (covered c)

end Cert.KernelIdeal.ValOut

end
-- ==== Proof.Val.Head.lean ====
import proofs.«141866_j33835752358180_1_alg».proof.Proof.KI.Chain
import proofs.«141866_j33835752358180_1_alg».proof.Proof.Val.Spec
import proofs.«141866_j33835752358180_1_alg».proof.Proof.Val.Lin0
import proofs.«141866_j33835752358180_1_alg».proof.Proof.Val.Lin1
import proofs.«141866_j33835752358180_1_alg».proof.Proof.Val.Lin2
import proofs.«141866_j33835752358180_1_alg».proof.Proof.Val.Sc
import proofs.«141866_j33835752358180_1_alg».proof.Proof.Val.Out
import Idealize.ShloMosaic.Lib.ValueLayout

set_option maxRecDepth 16384

noncomputable section

namespace Cert.KernelIdeal.ValHead

open Idealize.ShloMosaic Idealize.ShloMosaic.TcCoe Idealize.ShloMosaic.ValueIdx
open Idealize.SL Idealize.SL.Sem
open Cert.KernelIdeal Cert.KernelIdeal.Gen Cert.KernelIdeal.Hd

variable (m : (ℓ : Loc nD τ sig) → Buf (Elt Ideal) ℓ) (ρ : Dev nD → PrngReg)

theorem row_eq (b : (⟨1, ![1024]⟩ : Shape).Idx → EReal) (h : (⟨1, ![1024]⟩ : Shape).ShapeCasts ⟨2, ![1, 1024]⟩) :
    shapeCast ⟨2, ![1, 1024]⟩ b h = Cert.Spec.row b := by
  funext j
  rw [eq_ix2 j]
  exact shapeCast_a_1a_apply b h _ _

theorem q_value (c : Dev nD) : (dat0 (F := Ideal) (V1 m ρ) c).arrAt 3 cfg0.N
    = Cert.Spec.lin (m ((c : Thread nD τ).loc main_arg0)) (m ((c : Thread nD τ).loc main_arg3)) (Cert.Spec.row (m ((c : Thread nD τ).loc main_arg4))) := by
  rw [Cert.KernelIdeal.ValLin0.lin0_value, V1_arg m ρ c main_arg0 (by decide), V1_arg m ρ c main_arg3 (by decide), V1_v0 m ρ c]
  exact congrArg _ (row_eq _ _)

theorem k_value (c : Dev nD) : (dat1 (F := Ideal) (V3 m ρ) c).arrAt 3 cfg1.N
    = Cert.Spec.lin (m ((c : Thread nD τ).loc main_arg1)) (m ((c : Thread nD τ).loc main_arg5)) (Cert.Spec.row (m ((c : Thread nD τ).loc main_arg6))) := by
  rw [Cert.KernelIdeal.ValLin1.lin1_value, V3_arg m ρ c main_arg1 (by decide) (by decide) (by decide),
    V3_arg m ρ c main_arg5 (by decide) (by decide) (by decide), V3_v2 m ρ c, V2_arg6 m ρ c]
  exact congrArg _ (row_eq _ _)

theorem v_value (c : Dev nD) : (dat2 (F := Ideal) (V5 m ρ) c).arrAt 3 cfg2.N
    = Cert.Spec.lin (m ((c : Thread nD τ).loc main_arg2)) (m ((c : Thread nD τ).loc main_arg7)) (Cert.Spec.row (m ((c : Thread nD τ).loc main_arg8))) := by
  rw [Cert.KernelIdeal.ValLin2.lin2_value, V5_arg m ρ c main_arg2 (by decide) (by decide) (by decide) (by decide) (by decide),
    V5_arg m ρ c main_arg7 (by decide) (by decide) (by decide) (by decide) (by decide), V5_v4 m ρ c, V4_arg8 m ρ c]
  exact congrArg _ (row_eq _ _)

theorem result_value (c : Dev nD) : W8 m ρ c (Proc.devRef .tc main_v7)
    = Cert.Spec.head (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [W8_v7, Cert.KernelIdeal.ValOut.outp_value, V7_v6_0, V7_v6_1, V7_v5,
    Cert.KernelIdeal.ValSc.escore_value, Cert.KernelIdeal.ValSc.rowsum_value, V6_v1, V6_v3, q_value, k_value, v_value]
  rfl

-- Every weakly fair execution ends with the result array at `Spec.head` of the arguments and the arguments unchanged.
theorem run_value : θ_run defs (onTc (τ := τ) (main (F := Ideal))) ⟨m, fun _ => 0, ρ⟩ (fun r => ∀ c : Dev nD,
      r.2.mem ((c.tc : Thread nD τ).loc main_v7)
        = Cert.Spec.head (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v7 (by decide))).trans (result_value m ρ c),
     arg_end m ρ c (h c) main_arg0,
     arg_end m ρ c (h c) main_arg1,
     arg_end m ρ c (h c) main_arg2,
     arg_end m ρ c (h c) main_arg3,
     arg_end m ρ c (h c) main_arg4,
     arg_end m ρ c (h c) main_arg5,
     arg_end m ρ c (h c) main_arg6,
     arg_end m ρ c (h c) main_arg7,
     arg_end m ρ c (h c) main_arg8⟩)
    (run_all (F := Ideal) m ρ)

end Cert.KernelIdeal.ValHead

end
-- ==== Proof.Val.Finite.lean ====
import proofs.«141866_j33835752358180_1_alg».proof.Pre_finite_inputs
import proofs.«141866_j33835752358180_1_alg».proof.Proof.Gen.Pre_finite_inputs
import Idealize.ShloMosaic.Lib.ReduceAll
import Idealize.ShloMosaic.Lib.ValueIdx
import Idealize.ShloMosaic.PureOps.Ideal

noncomputable section

namespace Cert.Val

open Idealize.ShloMosaic Idealize.ShloMosaic.ValueIdx Cert.Pre_finite_inputs

instance : Subsingleton S_.Idx := ⟨fun _ _ => funext fun d => d.elim0⟩

theorem word_inf : Ideal.ofBits .f32 0x7F800000#32 = ⊤ := by simp [Ideal.ofBits, Ideal.ieee]

theorem real_of_abs_lt_inf (a : Ideal .f32)
    (h : FloatOps.cmpf (F := Ideal) .olt (FloatOps.hostAbsf a) (FloatOps.ofBits .f32 0x7F800000#32) = 1#1) :
    ∃ r : ℝ, a = (r : EReal) := by
  change Ideal.cmp .olt (max a (-a)) (Ideal.ofBits .f32 0x7F800000#32) = 1#1 at h
  rw [word_inf] at h
  induction a using EReal.rec with
  | bot => simp [Ideal.cmp] at h
  | top => simp [Ideal.cmp] at h
  | coe r => exact ⟨r, rfl⟩

theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = (r : EReal) :=
  real_of_abs_lt_inf (x i) (Host.reduce_andi_all _ _ hr hu ix0 e i)

-- The precondition bounds every entry of every input below +∞ in absolute value, so each is a real.
theorem finite_of_pre [Cert.Pre_finite_inputs.Facts]
    (x0 x1 x2 : FVec Ideal S4096x1024 .f32) (x3 : FVec Ideal S1024x1024 .f32) (x4 : FVec Ideal S1024 .f32)
    (x5 : FVec Ideal S1024x1024 .f32) (x6 : FVec Ideal S1024 .f32) (x7 : FVec Ideal S1024x1024 .f32) (x8 : FVec Ideal S1024 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal)) := by
  have h' := congrFun h ix0
  dsimp only [fn, fn_part1, fn_part2] at h'
  obtain ⟨h07, e8⟩ := IntOp.andi_eq_one.1 h'
  obtain ⟨h06, e7⟩ := IntOp.andi_eq_one.1 h07
  obtain ⟨h05, e6⟩ := IntOp.andi_eq_one.1 h06
  obtain ⟨h04, e5⟩ := IntOp.andi_eq_one.1 h05
  obtain ⟨h03, e4⟩ := IntOp.andi_eq_one.1 h04
  obtain ⟨h02, e3⟩ := IntOp.andi_eq_one.1 h03
  obtain ⟨h01, e2⟩ := IntOp.andi_eq_one.1 h02
  obtain ⟨e0, e1⟩ := IntOp.andi_eq_one.1 h01
  exact ⟨all_real x0 _ _ _ e0, all_real x1 _ _ _ e1, all_real x2 _ _ _ e2, all_real x3 _ _ _ e3, all_real x4 _ _ _ e4,
    all_real x5 _ _ _ e5, all_real x6 _ _ _ e6, all_real x7 _ _ _ e7, all_real x8 _ _ _ e8⟩

end Cert.Val

end
-- ==== Proof.Val.Law.lean ====
import proofs.«141866_j33835752358180_1_alg».proof.Proof.Val.Spec
import Mathlib.Data.EReal.Basic
import Mathlib.Data.EReal.Operations
import Mathlib.Analysis.SpecialFunctions.Exp
import Mathlib.Algebra.BigOperators.Group.Finset.Basic
import Mathlib.Algebra.Order.BigOperators.Group.Finset
import Mathlib.Tactic.Ring
import Mathlib.Tactic.NormNum

noncomputable section

namespace Cert.Spec

open Idealize.ShloMosaic Idealize.ShloMosaic.ValueIdx
open scoped BigOperators

abbrev SR : Shape := ⟨1, ![4096]⟩

def dense (x : SX.Idx → EReal) (w : SW.Idx → EReal) (b : SV.Idx → EReal) : SX.Idx → EReal :=
  fun i => (∑ k : Fin 1024, x (ix2 (i 0) k) * w (ix2 k (i 1))) + b (ix1 (i 1))

def refScore (q k : SX.Idx → EReal) : SE.Idx → EReal :=
  fun i => Ideal.exp (Ideal.div (∑ d : Fin 1024, q (ix2 (i 0) d) * k (ix2 (i 1) d)) (Ideal.ofBits .f32 0x44800000#32))

def refRowsum (q k : SX.Idx → EReal) : SR.Idx → EReal :=
  fun j => Ideal.ofBits .f32 0x00000000#32 + ∑ l : Fin 4096, refScore q k (ix2 (j 0) l)

-- The reference's result: out[i, d] = Σ_j (e[i, j] / r[j])·V[j, d] with e = exp (Q·Kᵀ / 1024).
def refHead (x0 x1 x2 : SX.Idx → EReal) (w3 : SW.Idx → EReal) (b4 : SV.Idx → EReal) (w5 : SW.Idx → EReal) (b6 : SV.Idx → EReal)
    (w7 : SW.Idx → EReal) (b8 : SV.Idx → EReal) : SX.Idx → EReal :=
  fun i => ∑ j : Fin 4096,
    Ideal.div (refScore (dense x0 w3 b4) (dense x1 w5 b6) (ix2 (i 0) j)) (refRowsum (dense x0 w3 b4) (dense x1 w5 b6) (ix1 j))
      * dense x2 w7 b8 (ix2 j (i 1))

theorem dense_eq_lin (x : SX.Idx → EReal) (w : SW.Idx → EReal) (b : SV.Idx → EReal) : dense x w b = lin x w (row b) := rfl

theorem word_1024 : Ideal.ofBits .f32 0x44800000#32 = ((1024 : ℝ) : EReal) := by
  simp [Ideal.ofBits, Ideal.ieee, -EReal.coe_mul] <;> norm_num

theorem word_inv_1024 : Ideal.ofBits .f32 0x3A800000#32 = ((1 / 1024 : ℝ) : EReal) := by
  simp [Ideal.ofBits, Ideal.ieee, -EReal.coe_mul] <;> norm_num

theorem div_1024_eq_mul_scale (s : EReal) : Ideal.div s (Ideal.ofBits .f32 0x44800000#32) = s * scale := by
  rw [word_1024, Ideal.div_coe (by norm_num : (1024 : ℝ) ≠ 0), scale, word_inv_1024]

theorem refScore_eq_escore (q k : SX.Idx → EReal) : refScore q k = escore q k := by
  funext i
  unfold refScore escore
  rw [div_1024_eq_mul_scale]

theorem refRowsum_eq_rowsum (q k : SX.Idx → EReal) (j : Fin 4096) : refRowsum q k (ix1 j) = rowsum q k (ix2 j 0) := by
  unfold refRowsum rowsum
  rw [Ideal.ofBits_zero_f32, zero_add, refScore_eq_escore]

theorem coe_sum {ι : Type*} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

theorem real_sum {ι : Type*} [Fintype ι] (f : ι → EReal) (h : ∀ i, ∃ r : ℝ, f i = r) : ∃ r : ℝ, ∑ i, f i = r := by
  choose g hg using h
  exact ⟨∑ i, g i, by rw [← coe_sum]; exact Finset.sum_congr rfl fun i _ => hg i⟩

theorem pos_real_sum {ι : Type*} [Fintype ι] [Nonempty ι] (f : ι → EReal) (h : ∀ i, ∃ r : ℝ, 0 < r ∧ f i = r) :
    ∃ r : ℝ, 0 < r ∧ ∑ i, f i = r := by
  choose g hg using h
  exact ⟨∑ i, g i, Finset.sum_pos (fun i _ => (hg i).1) Finset.univ_nonempty,
    by rw [← coe_sum]; exact Finset.sum_congr rfl fun i _ => (hg i).2⟩

theorem real_mul {a b : EReal} (ha : ∃ r : ℝ, a = r) (hb : ∃ r : ℝ, b = r) : ∃ r : ℝ, a * b = r := by
  obtain ⟨p, rfl⟩ := ha
  obtain ⟨q, rfl⟩ := hb
  exact ⟨p * q, (EReal.coe_mul p q).symm⟩

theorem real_add {a b : EReal} (ha : ∃ r : ℝ, a = r) (hb : ∃ r : ℝ, b = r) : ∃ r : ℝ, a + b = r := by
  obtain ⟨p, rfl⟩ := ha
  obtain ⟨q, rfl⟩ := hb
  exact ⟨p + q, (EReal.coe_add p q).symm⟩

theorem dense_real {x : SX.Idx → EReal} {w : SW.Idx → EReal} {b : SV.Idx → EReal} (hx : ∀ i, ∃ r : ℝ, x i = r)
    (hw : ∀ i, ∃ r : ℝ, w i = r) (hb : ∀ i, ∃ r : ℝ, b i = r) (i : SX.Idx) : ∃ r : ℝ, dense x w b i = r :=
  real_add (real_sum _ fun k => real_mul (hx _) (hw _)) (hb _)

theorem escore_pos {q k : SX.Idx → EReal} (hq : ∀ i, ∃ r : ℝ, q i = r) (hk : ∀ i, ∃ r : ℝ, k i = r) (i : SE.Idx) :
    ∃ r : ℝ, 0 < r ∧ escore q k i = r := by
  obtain ⟨s, hs⟩ := real_sum (fun d : Fin 1024 => q (ix2 (i 0) d) * k (ix2 (i 1) d)) fun d => real_mul (hq _) (hk _)
  refine ⟨Real.exp (s * (1 / 1024)), Real.exp_pos _, ?_⟩
  unfold escore
  rw [hs, scale, word_inv_1024, ← EReal.coe_mul, Ideal.exp_coe]

theorem rowsum_pos {q k : SX.Idx → EReal} (hq : ∀ i, ∃ r : ℝ, q i = r) (hk : ∀ i, ∃ r : ℝ, k i = r) (i : SD.Idx) :
    ∃ r : ℝ, 0 < r ∧ rowsum q k i = r :=
  pos_real_sum _ fun j => escore_pos hq hk _

-- For reals with r ≠ 0: (e / r)·v = e·(v / r).
theorem div_mul_eq_mul_div {e v r : ℝ} (hr : r ≠ 0) :
    Ideal.div (e : EReal) (r : EReal) * (v : EReal) = (e : EReal) * Ideal.div (v : EReal) (r : EReal) := by
  rw [Ideal.div_coe hr, Ideal.div_coe hr, ← EReal.coe_mul, ← EReal.coe_mul, ← EReal.coe_mul, ← EReal.coe_mul]
  congr 1
  ring

theorem refArrangement_eq_outp {q k v : SX.Idx → EReal} (hq : ∀ i, ∃ r : ℝ, q i = r) (hk : ∀ i, ∃ r : ℝ, k i = r)
    (hv : ∀ i, ∃ r : ℝ, v i = r) (i : SX.Idx) :
    (∑ j : Fin 4096, Ideal.div (refScore q k (ix2 (i 0) j)) (refRowsum q k (ix1 j)) * v (ix2 j (i 1)))
      = outp (escore q k) v (rowsum q k) i := by
  unfold outp
  refine Finset.sum_congr rfl fun j _ => ?_
  rw [refRowsum_eq_rowsum, refScore_eq_escore]
  obtain ⟨e, -, he⟩ := escore_pos hq hk (ix2 (i 0) j)
  obtain ⟨r, hr, hre⟩ := rowsum_pos hq hk (ix2 j 0)
  obtain ⟨u, hu⟩ := hv (ix2 j (i 1))
  rw [he, hre, hu]
  exact div_mul_eq_mul_div hr.ne'

-- On real inputs every row sum is a positive real, so the two arrangements of the quotient agree.
theorem refHead_eq_head {x0 x1 x2 : SX.Idx → EReal} {w3 : SW.Idx → EReal} {b4 : SV.Idx → EReal} {w5 : SW.Idx → EReal}
    {b6 : SV.Idx → EReal} {w7 : SW.Idx → EReal} {b8 : SV.Idx → EReal}
    (h0 : ∀ i, ∃ r : ℝ, x0 i = r) (h1 : ∀ i, ∃ r : ℝ, x1 i = r) (h2 : ∀ i, ∃ r : ℝ, x2 i = r)
    (h3 : ∀ i, ∃ r : ℝ, w3 i = r) (h4 : ∀ i, ∃ r : ℝ, b4 i = r) (h5 : ∀ i, ∃ r : ℝ, w5 i = r)
    (h6 : ∀ i, ∃ r : ℝ, b6 i = r) (h7 : ∀ i, ∃ r : ℝ, w7 i = r) (h8 : ∀ i, ∃ r : ℝ, b8 i = r) :
    refHead x0 x1 x2 w3 b4 w5 b6 w7 b8 = head x0 x1 x2 w3 b4 w5 b6 w7 b8 := by
  funext i
  unfold refHead head
  rw [← dense_eq_lin, ← dense_eq_lin, ← dense_eq_lin]
  exact refArrangement_eq_outp (dense_real h0 h3 h4) (dense_real h1 h5 h6) (dense_real h2 h7 h8) i

end Cert.Spec

end
-- ==== Proof.Val.Ref.lean ====
import proofs.«141866_j33835752358180_1_alg».proof.Proof.Gen.ReferenceIdeal.Read
import proofs.«141866_j33835752358180_1_alg».proof.Proof.Val.Law

noncomputable section

namespace Cert.RefValue

open Cert.ReferenceIdeal Cert.ReferenceIdeal.Read Idealize.ShloMosaic Idealize.ShloMosaic.ValueIdx
open scoped BigOperators

theorem q_lhs (i : S4096x1024.Idx) (k : Fin 1024) : lidx_main_v0 i k = (ix2 (i 0) k : S4096x1024.Idx) :=
  funext fun a => Fin.ext (by match a with | ⟨0, _⟩ => rfl | ⟨1, _⟩ => rfl)

theorem q_rhs (i : S4096x1024.Idx) (k : Fin 1024) : ridx_main_v0 i k = (ix2 k (i 1) : S1024x1024.Idx) :=
  funext fun a => Fin.ext (by match a with | ⟨0, _⟩ => rfl | ⟨1, _⟩ => rfl)

theorem q_bias (i : S4096x1024.Idx) : idx_main_v1 (idx_main_v2 i) = (ix1 (i 1) : S1024.Idx) :=
  funext fun a => Fin.ext (by match a with | ⟨0, _⟩ => rfl)

theorem k_lhs (i : S4096x1024.Idx) (k : Fin 1024) : lidx_main_v4 i k = (ix2 (i 0) k : S4096x1024.Idx) :=
  funext fun a => Fin.ext (by match a with | ⟨0, _⟩ => rfl | ⟨1, _⟩ => rfl)
theorem k_rhs (i : S4096x1024.Idx) (k : Fin 1024) : ridx_main_v4 i k = (ix2 k (i 1) : S1024x1024.Idx) :=
  funext fun a => Fin.ext (by match a with | ⟨0, _⟩ => rfl | ⟨1, _⟩ => rfl)
theorem k_bias (i : S4096x1024.Idx) : idx_main_v5 (idx_main_v6 i) = (ix1 (i 1) : S1024.Idx) :=
  funext fun a => Fin.ext (by match a with | ⟨0, _⟩ => rfl)

theorem v_lhs (i : S4096x1024.Idx) (k : Fin 1024) : lidx_main_v8 i k = (ix2 (i 0) k : S4096x1024.Idx) :=
  funext fun a => Fin.ext (by match a with | ⟨0, _⟩ => rfl | ⟨1, _⟩ => rfl)
theorem v_rhs (i : S4096x1024.Idx) (k : Fin 1024) : ridx_main_v8 i k = (ix2 k (i 1) : S1024x1024.Idx) :=
  funext fun a => Fin.ext (by match a with | ⟨0, _⟩ => rfl | ⟨1, _⟩ => rfl)
theorem v_bias (i : S4096x1024.Idx) : idx_main_v9 (idx_main_v10 i) = (ix1 (i 1) : S1024.Idx) :=
  funext fun a => Fin.ext (by match a with | ⟨0, _⟩ => rfl)

theorem score_lhs (j : S4096x4096.Idx) (d : Fin 1024) : lidx_main_v13 j d = (ix2 (j 0) d : S4096x1024.Idx) :=
  funext fun a => Fin.ext (by match a with | ⟨0, _⟩ => rfl | ⟨1, _⟩ => rfl)

theorem score_rhs (j : S4096x4096.Idx) (d : Fin 1024) : idx_main_v12 (ridx_main_v13 j d) = (ix2 (j 1) d : S4096x1024.Idx) :=
  funext fun a => Fin.ext (by match a with | ⟨0, _⟩ => rfl | ⟨1, _⟩ => rfl)

theorem rowsum_idx (j : S4096.Idx) (l : Fin 4096) : idx_main_v17 j l = (ix2 (j 0) l : S4096x4096.Idx) :=
  funext fun a => Fin.ext (by match a with | ⟨0, _⟩ => rfl | ⟨1, _⟩ => rfl)

theorem head_lhs (i : S4096x1024.Idx) (j : Fin 4096) : lidx_main_v21 i j = (ix2 (i 0) j : S4096x4096.Idx) :=
  funext fun a => Fin.ext (by match a with | ⟨0, _⟩ => rfl | ⟨1, _⟩ => rfl)

theorem head_rhs (i : S4096x1024.Idx) (j : Fin 4096) : ridx_main_v21 i j = (ix2 j (i 1) : S4096x1024.Idx) :=
  funext fun a => Fin.ext (by match a with | ⟨0, _⟩ => rfl | ⟨1, _⟩ => rfl)

theorem head_norm (i : S4096x1024.Idx) (j : Fin 4096) : idx_main_v18 (idx_main_v19 (lidx_main_v21 i j)) = (ix1 j : S4096.Idx) :=
  funext fun a => Fin.ext (by match a with | ⟨0, _⟩ => rfl)

theorem q_read (x0 : (⟨S4096x1024, .f32⟩ : BufTy).Contents (Elt Ideal)) (x3 : (⟨S1024x1024, .f32⟩ : BufTy).Contents (Elt Ideal))
    (x4 : (⟨S1024, .f32⟩ : BufTy).Contents (Elt Ideal)) :
    val_main_v3 (F := Ideal) x0 x3 x4 = Cert.Spec.dense x0 x3 x4 := by
  funext i
  rw [val_main_v3_apply, val_main_v0_apply, val_main_v2_apply, val_main_v1_apply, q_bias i]
  unfold Cert.Spec.dense
  refine congrArg (· + _) (Finset.sum_congr rfl fun k _ => ?_)
  rw [q_lhs i k, q_rhs i k]

theorem k_read (x1 : (⟨S4096x1024, .f32⟩ : BufTy).Contents (Elt Ideal)) (x5 : (⟨S1024x1024, .f32⟩ : BufTy).Contents (Elt Ideal))
    (x6 : (⟨S1024, .f32⟩ : BufTy).Contents (Elt Ideal)) :
    val_main_v7 (F := Ideal) x1 x5 x6 = Cert.Spec.dense x1 x5 x6 := by
  funext i
  rw [val_main_v7_apply, val_main_v4_apply, val_main_v6_apply, val_main_v5_apply, k_bias i]
  unfold Cert.Spec.dense
  refine congrArg (· + _) (Finset.sum_congr rfl fun k _ => ?_)
  rw [k_lhs i k, k_rhs i k]

theorem v_read (x2 : (⟨S4096x1024, .f32⟩ : BufTy).Contents (Elt Ideal)) (x7 : (⟨S1024x1024, .f32⟩ : BufTy).Contents (Elt Ideal))
    (x8 : (⟨S1024, .f32⟩ : BufTy).Contents (Elt Ideal)) :
    val_main_v11 (F := Ideal) x2 x7 x8 = Cert.Spec.dense x2 x7 x8 := by
  funext i
  rw [val_main_v11_apply, val_main_v8_apply, val_main_v10_apply, val_main_v9_apply, v_bias i]
  unfold Cert.Spec.dense
  refine congrArg (· + _) (Finset.sum_congr rfl fun k _ => ?_)
  rw [v_lhs i k, v_rhs i k]

theorem score_read (x0 x1 : (⟨S4096x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    val_main_v16 (F := Ideal) x0 x1 x3 x4 x5 x6
      = Cert.Spec.refScore (val_main_v3 (F := Ideal) x0 x3 x4) (val_main_v7 (F := Ideal) x1 x5 x6) := by
  funext j
  rw [val_main_v16_apply, val_main_v15_apply, val_main_v13_apply, val_main_v14_apply, val_main_cst_apply,
    Ideal.hostUnary_exp_def, Ideal.hostDivf_def, Ideal.ofBits_def]
  unfold Cert.Spec.refScore
  refine congrArg (fun s => Ideal.exp (Ideal.div s _)) (Finset.sum_congr rfl fun d _ => ?_)
  rw [val_main_v12_apply, score_lhs j d, score_rhs j d]

theorem rowsum_read (x0 x1 : (⟨S4096x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    val_main_v17 (F := Ideal) x0 x1 x3 x4 x5 x6
      = Cert.Spec.refRowsum (val_main_v3 (F := Ideal) x0 x3 x4) (val_main_v7 (F := Ideal) x1 x5 x6) := by
  funext j
  rw [val_main_v17_apply, val_main_cst_0_apply, score_read, Ideal.ofBits_def]
  unfold Cert.Spec.refRowsum
  refine congrArg (_ + ·) (Finset.sum_congr rfl fun l _ => ?_)
  rw [rowsum_idx j l]

theorem ref_is_refHead (x0 x1 x2 : (⟨S4096x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) :
    val_main_v21 (F := Ideal) x0 x1 x2 x3 x4 x5 x6 x7 x8 = Cert.Spec.refHead x0 x1 x2 x3 x4 x5 x6 x7 x8 := by
  funext i
  rw [val_main_v21_apply]
  unfold Cert.Spec.refHead
  refine Finset.sum_congr rfl fun j _ => ?_
  rw [val_main_v20_apply, val_main_v19_apply, val_main_v18_apply, score_read, rowsum_read, q_read, k_read, v_read,
    head_norm i j, head_lhs i j, head_rhs i j, Ideal.hostDivf_def]

theorem ref_is_head (x0 x1 x2 : (⟨S4096x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (h6 : ∀ i, ∃ r : ℝ, x6 i = (r : EReal)) (h7 : ∀ i, ∃ r : ℝ, x7 i = (r : EReal)) (h8 : ∀ i, ∃ r : ℝ, x8 i = (r : EReal)) :
    val_main_v21 (F := Ideal) x0 x1 x2 x3 x4 x5 x6 x7 x8 = Cert.Spec.head x0 x1 x2 x3 x4 x5 x6 x7 x8 :=
  (ref_is_refHead x0 x1 x2 x3 x4 x5 x6 x7 x8).trans (Cert.Spec.refHead_eq_head h0 h1 h2 h3 h4 h5 h6 h7 h8)

end Cert.RefValue

end
-- ==== Proof.lean ====
import proofs.«141866_j33835752358180_1_alg».proof.Defs
import proofs.«141866_j33835752358180_1_alg».proof.Proof.Gen.Kernel
import proofs.«141866_j33835752358180_1_alg».proof.Proof.Gen.KernelIdeal
import proofs.«141866_j33835752358180_1_alg».proof.Proof.Gen.ReferenceIdeal
import proofs.«141866_j33835752358180_1_alg».proof.Proof.Gen.Pre_finite_inputs
import proofs.«141866_j33835752358180_1_alg».proof.Proof.Gen.ReferenceIdeal.Run
import proofs.«141866_j33835752358180_1_alg».proof.Proof.Gen.ReferenceIdeal.Read
import proofs.«141866_j33835752358180_1_alg».proof.Proof.K.Chain
import proofs.«141866_j33835752358180_1_alg».proof.Proof.KI.Chain
import proofs.«141866_j33835752358180_1_alg».proof.Proof.Val.Head
import proofs.«141866_j33835752358180_1_alg».proof.Proof.Val.Finite
import proofs.«141866_j33835752358180_1_alg».proof.Proof.Val.Ref

noncomputable section

namespace Cert.Proof

open Idealize.ShloMosaic Idealize.SL.Sem

theorem frame_k : Cert.frame_Kernel := fun m ρ _ => Cert.Kernel.Hd.frame (F := Bits) m ρ

theorem frame_ki : Cert.frame_KernelIdeal := fun m ρ _ => Cert.KernelIdeal.Hd.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

-- Both runs end at `Spec.head` of the arguments: the kernel's by its regions' values, the reference's by its run and (e / r)·v = e·(v / r).
theorem algebraic : Cert.algebraic_KernelIdeal_ReferenceIdeal := by
  intro m ρ m' ρ' hpre hagree
  refine ⟨_, Cert.KernelIdeal.ValHead.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨f0, f1, f2, f3, f4, f5, f6, f7, f8⟩ := Cert.Val.finite_of_pre _ _ _ _ _ _ _ _ _ (hpre c)
  rw [a0, a1, a2, a3, a4, a5, a6, a7, a8]
  exact (Cert.ReferenceIdeal.Read.val_main_v21_eq _ _ _ _ _ _ _ _ _).trans
    (Cert.RefValue.ref_is_head _ _ _ _ _ _ _ _ _ f0 f1 f2 f3 f4 f5 f6 f7 f8)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
